-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v63 : IVec S_ 1) (main_v67 : IVec S1600000 1) (main_v68 : IVec S1x1600000 32) : IVec S_ 1 :=
  let main_v69 : IVec S1600000 32 := shapeCast S1600000 main_v68 shapeCasts_S1x1600000_S1600000
  let main_c_25 : IVec S_ 32 := constantI S_ 32 100000#32
  let main_v70 : IVec S1600000 32 := broadcastInDim S1600000 ![] bcast_S_S1600000 main_c_25
  let main_v71 : IVec S1600000 1 := cmpi .slt main_v69 main_v70
  let main_v72 : IVec S1600000 1 := andi main_v67 main_v71
  let main_c_26 : IVec S_ 1 := constantI S_ 1 1#1
  let main_v73 : IVec S_ 1 := (fun x v => Host.reduce IntOp.andi x v reducesTo_S1600000_S_d0 h_S_) main_v72 main_c_26
  let main_v74 : IVec S_ 1 := andi main_v63 main_v73
  main_v74

def fn_part3 {F : FTy → Type} [FloatOps F] (main_arg1 : IVec S2x1600000 32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : IVec S1x1600000 32 := (extractStridedSlice S1x1600000 ![0, 0] · slices_S2x1600000_S1x1600000_0_0) main_arg1
  let main_v65 : IVec S1600000 32 := shapeCast S1600000 main_v64 shapeCasts_S1x1600000_S1600000
  let main_c_24 : IVec S_ 32 := constantI S_ 32 4294867296#32
  let main_v66 : IVec S1600000 32 := broadcastInDim S1600000 ![] bcast_S_S1600000 main_c_24
  let main_v67 : IVec S1600000 1 := cmpi .sge main_v65 main_v66
  let main_v68 : IVec S1x1600000 32 := (extractStridedSlice S1x1600000 ![0, 0] · slices_S2x1600000_S1x1600000_0_0) main_arg1
  fn_part4 (F := F) main_v63 main_v67 main_v68

def fn_part2 {F : FTy → Type} [FloatOps F] (main_arg1 : IVec S2x1600000 32) (main_arg9 : FVec F S3x128x128 .f32) (main_arg10 : FVec F S3x128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_v48 main_v49 main_v50

def fn_part1 {F : FTy → Type} [FloatOps F] (main_arg1 : IVec S2x1600000 32) (main_arg6 : FVec F S3x128 .f32) (main_arg7 : FVec F S3x128 .f32) (main_arg8 : FVec F S3x128 .f32) (main_arg9 : FVec F S3x128x128 .f32) (main_arg10 : FVec F S3x128 .f32) (main_arg11 : FVec F S128x128 .f32) (main_arg12 : FVec F S128 .f32) (main_arg13 : FVec F S128x128 .f32) (main_arg14 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S128x128 .f32) (main_arg12 : FVec F S128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128x128 : Shape := ⟨3, ![1, 128, 128]⟩
abbrev S1x128 : Shape := ⟨2, ![1, 128]⟩
abbrev S5000x128 : Shape := ⟨2, ![5000, 128]⟩
abbrev S1024x128 : Shape := ⟨2, ![1024, 128]⟩
abbrev S1000x128 : Shape := ⟨2, ![1000, 128]⟩
abbrev S1000x1 : Shape := ⟨2, ![1000, 1]⟩
abbrev S1000x1024 : Shape := ⟨2, ![1000, 1024]⟩

abbrev nBuf : Space → Nat
  | .hbm => 176
  | .vmem => 46
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S128x128, .f32⟩
  | 12 => ⟨S128, .f32⟩
  | 13 => ⟨S128x128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S100000x1, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1, .i32⟩
  | 29 => ⟨S_, .i32⟩
  | 30 => ⟨S1600000x1, .i32⟩
  | 31 => ⟨S1600000x1, .i1⟩
  | 32 => ⟨S1x1, .i32⟩
  | 33 => ⟨S1600000x1, .i32⟩
  | 34 => ⟨S1600000x1, .i1⟩
  | 35 => ⟨S1600000x1, .i1⟩
  | 36 => ⟨S_, .i1⟩
  | 37 => ⟨S1600000, .i1⟩
  | 38 => ⟨S1600000x128, .f32⟩
  | 39 => ⟨S1600000x128, .i1⟩
  | 40 => ⟨S_, .f32⟩
  | 41 => ⟨S1600000x128, .f32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1, .i32⟩
  | 80 => ⟨S_, .i32⟩
  | 81 => ⟨S1600000x1, .i32⟩
  | 82 => ⟨S1600000x1, .i1⟩
  | 83 => ⟨S1x1, .i32⟩
  | 84 => ⟨S1600000x1, .i32⟩
  | 85 => ⟨S1600000x1, .i1⟩
  | 86 => ⟨S1600000x1, .i1⟩
  | 87 => ⟨S_, .i1⟩
  | 88 => ⟨S1600000, .i1⟩
  | 89 => ⟨S1600000x128, .f32⟩
  | 90 => ⟨S1600000x128, .i1⟩
  | 91 => ⟨S_, .f32⟩
  | 92 => ⟨S1600000x128, .f32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1, .i32⟩
  | 3 => ⟨S_, .i32⟩
  | 4 => ⟨S1600000x1, .i32⟩
  | 5 => ⟨S1600000x1, .i1⟩
  | 6 => ⟨S1x1, .i32⟩
  | 7 => ⟨S1600000x1, .i32⟩
  | 8 => ⟨S1600000x1, .i1⟩
  | 9 => ⟨S1600000x1, .i1⟩
  | 10 => ⟨S_, .i1⟩
  | 11 => ⟨S1600000, .i1⟩
  | 12 => ⟨S1600000x128, .f32⟩
  | 13 => ⟨S1600000x128, .i1⟩
  | 14 => ⟨S_, .f32⟩
  | 15 => ⟨S1600000x128, .f32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S100000x128, .f32⟩
  | 22 => ⟨S1x128x128, .f32⟩
  | 23 => ⟨S128x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S100000x128, .f32⟩
  | 45 => ⟨S1x128, .f32⟩
  | 46 => ⟨S1x128, .f32⟩
  | 47 => ⟨S1024x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1000x128, .f32⟩
  | .local _ .vmem, ⟨37, _⟩ => ⟨S1000x128, .f32⟩
  | .local _ .vmem, ⟨38, _⟩ => ⟨S1000x1, .i32⟩
  | .local _ .vmem, ⟨39, _⟩ => ⟨S1000x1, .i32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S1024x128, .f32⟩
  | .local _ .vmem, ⟨45, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_cst : Ref sig .tc := ⟨.hbm, 91, rfl⟩
abbrev main_call1_v15 : Ref sig .tc := ⟨.hbm, 92, rfl⟩
abbrev main_v33 : Ref sig .tc := ⟨.hbm, 93, rfl⟩
abbrev main_cst_0 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_call2_c : Ref sig .tc := ⟨.hbm, 122, rfl⟩
abbrev main_call2_v0 : Ref sig .tc := ⟨.hbm, 123, rfl⟩
abbrev main_call2_v1 : Ref sig .tc := ⟨.hbm, 124, rfl⟩
abbrev main_call2_c_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_c_1 : Ref sig .tc := ⟨.hbm, 130, rfl⟩
abbrev main_call2_c_2 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_3 : Ref sig .tc := ⟨.hbm, 138, rfl⟩
abbrev main_call2_v12 : Ref sig .tc := ⟨.hbm, 139, rfl⟩
abbrev main_call2_v13 : Ref sig .tc := ⟨.hbm, 140, rfl⟩
abbrev main_call2_v14 : Ref sig .tc := ⟨.hbm, 141, rfl⟩
abbrev main_call2_cst : Ref sig .tc := ⟨.hbm, 142, rfl⟩
abbrev main_call2_v15 : Ref sig .tc := ⟨.hbm, 143, rfl⟩
abbrev main_v61 : Ref sig .tc := ⟨.hbm, 144, rfl⟩
abbrev main_cst_1 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_scratch0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v18 : BitVec 1 := Scalar.cmpi .eq arg0 c99_i32
  let v19 : BitVec 32 := Scalar.extui v18
  let c0_i32_8 : BitVec 32 := 0#32
  let v20 : BitVec 1 := Scalar.cmpi .ne v19 c0_i32_8
  v20

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  broadcasts_S1000x1_S1000x1024 : S1000x1.Broadcasts S1000x1024
  natLt_1_32 : 1 < 32
  broadcasts_S1x128_S1024x128 : S1x128.Broadcasts S1024x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1000x1024_S1000x128_S1024x128_0_0_1_1_n_n_wf : DotDims.WF S1000x1024 S1000x128 S1024x128 [0] [0] [1] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S100000x1.size a
  hwx3_1 : ∀ i : grid3.Coords, EltTy.bits .i32 = 32 ∨ (Rect.block (s := S100000x1) S1000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x128.size a ≤ S1024x128.size a
  hwx3_6 : ∀ i : grid3.Coords, EltTy.bits .f32 = 32 ∨ (Rect.block (s := S1024x128) S1024x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x1024_S1000x128_S1024x128_0_0_1_1_n_n : DotDims S1000x1024 S1000x128 S1024x128 where
  lhsContracting := [0]
  rhsContracting := [0]
  lhsNonContracting := [1]
  rhsNonContracting := [1]
  lhsBatch := []
  rhsBatch := []
  wf := dot_S1000x1024_S1000x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v60) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v82) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v85) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v87) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v88) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v88) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S1024x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S1024x128 : Shape := ⟨2, ![1024, 128]⟩
abbrev S100000x1 : Shape := ⟨2, ![100000, 1]⟩

abbrev nBuf : Space → Nat
  | .hbm => 214
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S128x128, .f32⟩
  | 12 => ⟨S128, .f32⟩
  | 13 => ⟨S128x128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S1x128x128, .f32⟩
  | 34 => ⟨S128x128, .f32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S1x128x128, .f32⟩
  | 69 => ⟨S128x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S128, .f32⟩
  | 108 => ⟨S_, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S1x128x128, .f32⟩
  | 1 => ⟨S128x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000x128, .f32⟩
  | 25 => ⟨S1x128x128, .f32⟩
  | 26 => ⟨S128x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S1024x128, .f32⟩
  | 73 => ⟨S100000x1, .i32⟩
  | 74 => ⟨S1024x128, .f32⟩
  | 75 => ⟨S1024x128, .f32⟩
  | 76 => ⟨S1x128, .f32⟩
  | 77 => ⟨S1024x128, .f32⟩
  | 78 => ⟨S1024x128, .f32⟩
  | 79 => ⟨S_, .f32⟩
  | 80 => ⟨S1024x128, .f32⟩
  | 81 => ⟨S1024x128, .f32⟩
  | 82 => ⟨S1024x128, .f32⟩
  | 83 => ⟨S1x128, .f32⟩
  | 84 => ⟨S1024x128, .f32⟩
  | 85 => ⟨S1024x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_c_2 : Ref sig .tc := ⟨.hbm, 79, rfl⟩
abbrev main_v56 : Ref sig .tc := ⟨.hbm, 80, rfl⟩
abbrev main_v57 : Ref sig .tc := ⟨.hbm, 81, rfl⟩
abbrev main_c_3 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_4 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_5 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_call2_cst : Ref sig .tc := ⟨.hbm, 125, rfl⟩
abbrev main_call2_v0 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_call3_cst : Ref sig .tc := ⟨.hbm, 136, rfl⟩
abbrev main_call3_v0 : Ref sig .tc := ⟨.hbm, 137, rfl⟩
abbrev main_v107 : Ref sig .tc := ⟨.hbm, 138, rfl⟩
abbrev main_c_6 : Ref sig .tc := ⟨.hbm, 139, rfl⟩
abbrev main_v108 : Ref sig .tc := ⟨.hbm, 140, rfl⟩
abbrev main_v109 : Ref sig .tc := ⟨.hbm, 141, rfl⟩
abbrev main_c_7 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_8 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_9 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_call4_cst : Ref sig .tc := ⟨.hbm, 185, rfl⟩
abbrev main_call4_v0 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_call5_cst : Ref sig .tc := ⟨.hbm, 196, rfl⟩
abbrev main_call5_v0 : Ref sig .tc := ⟨.hbm, 197, rfl⟩
abbrev main_v159 : Ref sig .tc := ⟨.hbm, 198, rfl⟩
abbrev main_cst_10 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_call6_cst : Ref sig .tc := ⟨.hbm, 207, rfl⟩
abbrev main_call6_v0 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S1x128_S1024x128_0_1 : S1x128.BroadcastsInDim S1024x128 (![0, 1] : Fin 2 → Fin S1024x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.KF.Mlp0.lean ====
import proofs.«410344_j57440892617235_1_alg».proof.Proof.Gen.Kernel.Launch
import proofs.«410344_j57440892617235_1_alg».proof.Proof.Gen.Kernel.Skeleton
import proofs.«410344_j57440892617235_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rV0 : Rect S1x128 := Rect.unit (s := S1x128) ![0, 0] S1x128.size inb_S1x128_S1x128_0_0

def out0_9 (x0 : Vec F S5000x128 .f32) (x1 : Vec F S128x128 .f32) (x2 x3 x4 x5 x6 : Vec F S1x128 .f32) (x7 : Vec F S128x128 .f32) (x8 : Vec F S1x128 .f32) : Vec F S5000x128 .f32 :=
  View.canon [⟨rA0, k0_pay1 (k0_pay2 (View.ld x0 rA0) (View.ld x1 rW0) (View.ld x2 rV0) (View.ld x5 rV0) (View.ld x6 rV0) (View.ld x3 rV0) (View.ld x4 rV0) (View.ld x7 rW0) (View.ld x8 rV0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

theorem before0 (c : Dev nD) (t : Fin cfg0.N) : ∀ w : Fin cfg0.W, w ≠ 9 → ∀ d, (dat0 V c).before w t d = (dat0 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat0 V c).before_in_eq_fetched _ rfl (fun _ => rfl) (fun _ _ _ => rfl) (fun _ => rfl) t d
  | ⟨9, _⟩, h, _ => absurd rfl h

theorem before0_0 (c : Dev nD) (t : Fin cfg0.N) (d) : (dat0 V c).before 0 t d = iblk0 V c 0 t := before0 V c t 0 (by decide) d
theorem before0_1 (c : Dev nD) (t : Fin cfg0.N) (d) : (dat0 V c).before 1 t d = iblk0 V c 1 t := before0 V c t 1 (by decide) d
theorem before0_2 (c : Dev nD) (t : Fin cfg0.N) (d) : (dat0 V c).before 2 t d = iblk0 V c 2 t := before0 V c t 2 (by decide) d
theorem before0_3 (c : Dev nD) (t : Fin cfg0.N) (d) : (dat0 V c).before 3 t d = iblk0 V c 3 t := before0 V c t 3 (by decide) d
theorem before0_4 (c : Dev nD) (t : Fin cfg0.N) (d) : (dat0 V c).before 4 t d = iblk0 V c 4 t := before0 V c t 4 (by decide) d
theorem before0_5 (c : Dev nD) (t : Fin cfg0.N) (d) : (dat0 V c).before 5 t d = iblk0 V c 5 t := before0 V c t 5 (by decide) d
theorem before0_6 (c : Dev nD) (t : Fin cfg0.N) (d) : (dat0 V c).before 6 t d = iblk0 V c 6 t := before0 V c t 6 (by decide) d
theorem before0_7 (c : Dev nD) (t : Fin cfg0.N) (d) : (dat0 V c).before 7 t d = iblk0 V c 7 t := before0 V c t 7 (by decide) d
theorem before0_8 (c : Dev nD) (t : Fin cfg0.N) (d) : (dat0 V c).before 8 t d = iblk0 V c 8 t := before0 V c t 8 (by decide) d

theorem cover0_9 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

/-- Under any frame `P ∗ Q` the body returns its nine inputs unchanged and, in the output, `out0_9` of them: its one store covers the block. -/
theorem sound_body_mlp {D0 D1 D2 D3 D4 D5 D6 D7 D8 D9 : Type} (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x128 .f32) (harg8 : arg8.IsWhole)
    (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (g : D9 → Vec F S5000x128 .f32) (P Q : sProp 𝕄) :
    iprop(P ∗ Q
        ∗ (∃ _ : D0, owns (c : Thread nD τ) arg1 fullShare x0) ∗ (∃ _ : D1, owns (c : Thread nD τ) arg2 fullShare x1)
        ∗ (∃ _ : D2, owns (c : Thread nD τ) arg3 fullShare x2) ∗ (∃ _ : D3, owns (c : Thread nD τ) arg4 fullShare x3)
        ∗ (∃ _ : D4, owns (c : Thread nD τ) arg5 fullShare x4) ∗ (∃ _ : D5, owns (c : Thread nD τ) arg6 fullShare x5)
        ∗ (∃ _ : D6, owns (c : Thread nD τ) arg7 fullShare x6) ∗ (∃ _ : D7, owns (c : Thread nD τ) arg8 fullShare x7)
        ∗ (∃ _ : D8, owns (c : Thread nD τ) arg9 fullShare x8) ∗ (∃ d : D9, owns (c : Thread nD τ) arg10 fullShare (g d)))
      ⊢ wp frame (wpE (defs₀ (F := F)) Variants.none c none) Set.univ
          (cc0__mlp_kernel i arg1 harg1 arg2 harg2 arg3 harg3 arg4 harg4 arg5 harg5 arg6 harg6 arg7 harg7 arg8 harg8 arg9 harg9 arg10 harg10)
          (fun _ => iprop(P ∗ Q
            ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8))) := by
  simp only [cc0__mlp_kernel_eq_skeleton]; unfold cc0__mlp_kernel_skel
  unfold owns
  iintro ⟨HP, HQ, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩,
    ⟨%_, %f6, %hf6, H6⟩, ⟨%_, %f7, %hf7, H7⟩, ⟨%_, %f8, %hf8, H8⟩, ⟨%d9, %f9, -, H9⟩⟩
  subst hf0; subst hf1; subst hf2; subst hf3; subst hf4; subst hf5; subst hf6; subst hf7; subst hf8
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

theorem body_obligation0 (c : Dev nD) : BodyObligation (dat0 (F := F) V c) (defs₀ (F := F)) Variants.none () Set.univ := fun t => by
  rw [bigSep_W0, bigSep_W0]
  simp only [before0_0, before0_1, before0_2, before0_3, before0_4, before0_5, before0_6, before0_7, before0_8]
  rw [after0_0, after0_1, after0_2, after0_3, after0_4, after0_5, after0_6, after0_7, after0_8, after0_9]
  show _ ⊢ wp _ _ _ (bodyAt0 t) _
  unfold bodyAt0
  exact sound_body_mlp c _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _ _ _

end Cert.Kernel.Fr

end
-- ==== Proof.KF.Mlp1.lean ====
import proofs.«410344_j57440892617235_1_alg».proof.Proof.Gen.Kernel.Launch
import proofs.«410344_j57440892617235_1_alg».proof.Proof.Gen.Kernel.Skeleton
import proofs.«410344_j57440892617235_1_alg».proof.Proof.Gen.Kernel.Points
import proofs.«410344_j57440892617235_1_alg».proof.Proof.KF.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rV1 : Rect S1x128 := Rect.unit (s := S1x128) ![0, 0] S1x128.size inb_S1x128_S1x128_0_0

def out1_9 (x0 : Vec F S5000x128 .f32) (x1 : Vec F S128x128 .f32) (x2 x3 x4 x5 x6 : Vec F S1x128 .f32) (x7 : Vec F S128x128 .f32) (x8 : Vec F S1x128 .f32) : Vec F S5000x128 .f32 :=
  View.canon [⟨rA1, k1_pay1 (k1_pay2 (View.ld x0 rA1) (View.ld x1 rW1) (View.ld x2 rV1) (View.ld x5 rV1) (View.ld x6 rV1) (View.ld x3 rV1) (View.ld x4 rV1) (View.ld x7 rW1) (View.ld x8 rV1))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

theorem before1 (c : Dev nD) (t : Fin cfg1.N) : ∀ w : Fin cfg1.W, w ≠ 9 → ∀ d, (dat1 V c).before w t d = (dat1 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat1 V c).before_in_eq_fetched _ rfl (fun _ => rfl) (fun _ _ _ => rfl) (fun _ => rfl) t d
  | ⟨9, _⟩, h, _ => absurd rfl h

theorem before1_0 (c : Dev nD) (t : Fin cfg1.N) (d) : (dat1 V c).before 0 t d = iblk1 V c 0 t := before1 V c t 0 (by decide) d
theorem before1_1 (c : Dev nD) (t : Fin cfg1.N) (d) : (dat1 V c).before 1 t d = iblk1 V c 1 t := before1 V c t 1 (by decide) d
theorem before1_2 (c : Dev nD) (t : Fin cfg1.N) (d) : (dat1 V c).before 2 t d = iblk1 V c 2 t := before1 V c t 2 (by decide) d
theorem before1_3 (c : Dev nD) (t : Fin cfg1.N) (d) : (dat1 V c).before 3 t d = iblk1 V c 3 t := before1 V c t 3 (by decide) d
theorem before1_4 (c : Dev nD) (t : Fin cfg1.N) (d) : (dat1 V c).before 4 t d = iblk1 V c 4 t := before1 V c t 4 (by decide) d
theorem before1_5 (c : Dev nD) (t : Fin cfg1.N) (d) : (dat1 V c).before 5 t d = iblk1 V c 5 t := before1 V c t 5 (by decide) d
theorem before1_6 (c : Dev nD) (t : Fin cfg1.N) (d) : (dat1 V c).before 6 t d = iblk1 V c 6 t := before1 V c t 6 (by decide) d
theorem before1_7 (c : Dev nD) (t : Fin cfg1.N) (d) : (dat1 V c).before 7 t d = iblk1 V c 7 t := before1 V c t 7 (by decide) d
theorem before1_8 (c : Dev nD) (t : Fin cfg1.N) (d) : (dat1 V c).before 8 t d = iblk1 V c 8 t := before1 V c t 8 (by decide) d

/-- Region 1's body and output block are region 0's: the same text under another name. -/
theorem cc1_eq : @cc1__mlp_kernel F _ = @cc0__mlp_kernel F _ := rfl
theorem out1_9_eq : @out1_9 F _ = @out0_9 F _ := rfl

theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7, before1_8]
  rw [after1_0, after1_1, after1_2, after1_3, after1_4, after1_5, after1_6, after1_7, after1_8, after1_9, out1_9_eq]
  show _ ⊢ wp _ _ _ (bodyAt1 t) _
  unfold bodyAt1
  rw [cc1_eq]
  exact sound_body_mlp c _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _ _ _

end Cert.Kernel.Fr

end
-- ==== Proof.KF.Mlp2.lean ====
import proofs.«410344_j57440892617235_1_alg».proof.Proof.Gen.Kernel.Launch
import proofs.«410344_j57440892617235_1_alg».proof.Proof.Gen.Kernel.Skeleton
import proofs.«410344_j57440892617235_1_alg».proof.Proof.Gen.Kernel.Points
import proofs.«410344_j57440892617235_1_alg».proof.Proof.KF.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rV2 : Rect S1x128 := Rect.unit (s := S1x128) ![0, 0] S1x128.size inb_S1x128_S1x128_0_0

def out2_9 (x0 : Vec F S5000x128 .f32) (x1 : Vec F S128x128 .f32) (x2 x3 x4 x5 x6 : Vec F S1x128 .f32) (x7 : Vec F S128x128 .f32) (x8 : Vec F S1x128 .f32) : Vec F S5000x128 .f32 :=
  View.canon [⟨rA2, k2_pay1 (k2_pay2 (View.ld x0 rA2) (View.ld x1 rW2) (View.ld x2 rV2) (View.ld x5 rV2) (View.ld x6 rV2) (View.ld x3 rV2) (View.ld x4 rV2) (View.ld x7 rW2) (View.ld x8 rV2))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]

theorem before2 (c : Dev nD) (t : Fin cfg2.N) : ∀ w : Fin cfg2.W, w ≠ 9 → ∀ d, (dat2 V c).before w t d = (dat2 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat2 V c).before_in_eq_fetched _ rfl (fun _ => rfl) (fun _ _ _ => rfl) (fun _ => rfl) t d
  | ⟨9, _⟩, h, _ => absurd rfl h

theorem before2_0 (c : Dev nD) (t : Fin cfg2.N) (d) : (dat2 V c).before 0 t d = iblk2 V c 0 t := before2 V c t 0 (by decide) d
theorem before2_1 (c : Dev nD) (t : Fin cfg2.N) (d) : (dat2 V c).before 1 t d = iblk2 V c 1 t := before2 V c t 1 (by decide) d
theorem before2_2 (c : Dev nD) (t : Fin cfg2.N) (d) : (dat2 V c).before 2 t d = iblk2 V c 2 t := before2 V c t 2 (by decide) d
theorem before2_3 (c : Dev nD) (t : Fin cfg2.N) (d) : (dat2 V c).before 3 t d = iblk2 V c 3 t := before2 V c t 3 (by decide) d
theorem before2_4 (c : Dev nD) (t : Fin cfg2.N) (d) : (dat2 V c).before 4 t d = iblk2 V c 4 t := before2 V c t 4 (by decide) d
theorem before2_5 (c : Dev nD) (t : Fin cfg2.N) (d) : (dat2 V c).before 5 t d = iblk2 V c 5 t := before2 V c t 5 (by decide) d
theorem before2_6 (c : Dev nD) (t : Fin cfg2.N) (d) : (dat2 V c).before 6 t d = iblk2 V c 6 t := before2 V c t 6 (by decide) d
theorem before2_7 (c : Dev nD) (t : Fin cfg2.N) (d) : (dat2 V c).before 7 t d = iblk2 V c 7 t := before2 V c t 7 (by decide) d
theorem before2_8 (c : Dev nD) (t : Fin cfg2.N) (d) : (dat2 V c).before 8 t d = iblk2 V c 8 t := before2 V c t 8 (by decide) d

/-- Region 1's body and output block are region 0's: the same text under another name. -/
theorem cc2_eq : @cc2__mlp_kernel F _ = @cc0__mlp_kernel F _ := rfl
theorem out2_9_eq : @out2_9 F _ = @out0_9 F _ := rfl

theorem body_obligation2 (c : Dev nD) : BodyObligation (dat2 (F := F) V c) (defs₀ (F := F)) Variants.none () Set.univ := fun t => by
  rw [bigSep_W2, bigSep_W2]
  simp only [before2_0, before2_1, before2_2, before2_3, before2_4, before2_5, before2_6, before2_7, before2_8]
  rw [after2_0, after2_1, after2_2, after2_3, after2_4, after2_5, after2_6, after2_7, after2_8, after2_9, out2_9_eq]
  show _ ⊢ wp _ _ _ (bodyAt2 t) _
  unfold bodyAt2
  rw [cc2_eq]
  exact sound_body_mlp c _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) _ _ _

end Cert.Kernel.Fr

end
-- ==== Proof.KF.Pool.lean ====
import proofs.«410344_j57440892617235_1_alg».proof.Proof.Gen.Kernel.Launch
import proofs.«410344_j57440892617235_1_alg».proof.Proof.Gen.Kernel.Skeleton
import proofs.«410344_j57440892617235_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rP3 : Rect S1024x128 := Rect.unit (s := S1024x128) ![0, 0] S1024x128.size inb_S1024x128_S1024x128_0_0
abbrev rX3 : Rect S1000x128 := Rect.unit (s := S1000x128) ![0, 0] S1000x128.size inb_S1000x128_S1000x128_0_0
abbrev rB3 : Rect S1000x1 := Rect.unit (s := S1000x1) ![0, 0] S1000x1.size inb_S1000x1_S1000x1_0_0
abbrev rW3 : Rect S128x128 := Rect.unit (s := S128x128) ![0, 0] S128x128.size inb_S128x128_S128x128_0_0
abbrev rV3 : Rect S1x128 := Rect.unit (s := S1x128) ![0, 0] S1x128.size inb_S1x128_S1x128_0_0

def acc3 (c : Dev nD) : ℕ → Vec F S1024x128 .f32
  | 0 => View.canon [⟨rP3, k3_pay1 (F := F)⟩]
  | n + 1 => if h : n < cfg3.N then
      View.canon [⟨rP3, k3_pay2 (View.ld (iblk3 V c 0 ⟨n, h⟩) rX3) (View.ld (iblk3 V c 1 ⟨n, h⟩) rB3) (View.ld (acc3 c n) rP3)⟩]
    else acc3 c n

def out3_6 (a : Vec F S1024x128 .f32) (w1 : Vec F S128x128 .f32) (b1 : Vec F S1x128 .f32) (w2 : Vec F S128x128 .f32) (b2 : Vec F S1x128 .f32) : Vec F S1024x128 .f32 :=
  View.canon [⟨rP3, k3_pay3 (View.ld a rP3) (View.ld w1 rW3) (View.ld b1 rV3) (View.ld w2 rW3) (View.ld b2 rV3)⟩]

abbrev scr3 : Memref sig .tc .vmem S1024x128 .f32 := Memref.whole cc3_scratch0

def Φ3 (c : Dev nD) (t : Fin (cfg3.N + 1)) : sProp 𝕄 :=
  iprop((∃ r, prngReg c r)
    ∗ (∃ X : Vec F S1024x128 .f32, ⌜t.val ≠ 0 → X = acc3 V c t.val⌝ ∗ owns (c : Thread nD τ) scr3 fullShare X)
    ∗ Pipeline.scopedRestBut (Ix := Unit) (Name := ℕ) (U := UR sig nD τ) (Lvl := ℕ) (Val := Elt F) spec3 c [cc3_scratch0])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (acc3 V c (t.val + 1)) (iblk3 V c 2 t) (iblk3 V c 3 t) (iblk3 V c 4 t) (iblk3 V c 5 t)
  Φ := Φ3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (acc3 V c (t.val + 1)) (iblk3 V c 2 t) (iblk3 V c 3 t) (iblk3 V c 4 t) (iblk3 V c 5 t) := by
  dsimp only [dat3]

theorem Φ_eq3 (c : Dev nD) (t : Fin (cfg3.N + 1)) : (dat3 V c).Φ t = Φ3 V c t := by dsimp only [dat3]

theorem scr_eq3 (c : Dev nD) (f : Buf (Elt F) ((c : Thread nD τ).loc cc3_scratch0)) :
    ((scr3.view.loc (c : Thread nD τ)) ↦[scr3.view.set]{fullShare} f : sProp 𝕄)
      = ((c : Thread nD τ).loc cc3_scratch0) ↦{fullShare} f := by
  simp only [Memref.view_whole, View.set_whole]

theorem hin3 (c : Dev nD) : iprop((∃ r, prngReg c r) ∗ Pipeline.prefHeld (Ix := Unit) (Name := ℕ) (U := UR sig nD τ) (Lvl := ℕ) (pcfgs (F := F) 3).pre c (fun _ => fullShare) ((cfgs 3).toPCfg_adm (Val := Elt F)).1 ∗ Pipeline.scopedRest (Ix := Unit) (Name := ℕ) (U := UR sig nD τ) (Lvl := ℕ) (Val := Elt F) spec3 c) ⊢ (dat3 V c).Φ 0 := by
  rw [Φ_eq3, scopedRest3_split]
  unfold Φ3
  iintro ⟨Hp, -, ⟨%f, HS⟩, HR⟩
  isplitl [Hp]; · iexact Hp
  isplitl [HS]
  · iexists (scr3.view.read (Elt F) f); isplitr; · ipureintro; intro h; exact absurd rfl h
    unfold owns; iexists f; isplitr; · ipureintro; rfl
    rw [scr_eq3]; iexact HS
  iexact HR

theorem hout3 (c : Dev nD) : (dat3 V c).Φ (Fin.last cfg3.N) ⊢ (iprop((∃ r, prngReg c r) ∗ emp ∗ Pipeline.scopedRest (Ix := Unit) (Name := ℕ) (U := UR sig nD τ) (Lvl := ℕ) (Val := Elt F) spec3 c) : sProp 𝕄) := by
  rw [Φ_eq3, scopedRest3_split]
  unfold Φ3 owns
  iintro ⟨Hp, ⟨%X, -, %f, -, HS⟩, HR⟩
  isplitl [Hp]; · iexact Hp
  isplitr; · iempintro
  isplitl [HS]
  · iexists f; rw [← scr_eq3]; iexact HS
  iexact HR

abbrev cond3_1 (i : grid3.Coords) : Prop := (Scalar.cmpi .ne (Scalar.extui (Scalar.cmpi .eq (BitVec.ofNat 32 (i 0).val) 0#32)) 0#32) = 1#1
abbrev cond3_2 (i : grid3.Coords) : Prop := k3_cond2 i = 1#1

theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 99 :=
  (by decide +kernel : ∀ t : Fin grid3.N, cond3_2 (grid3.coords t) ↔ t.val = 99)
theorem hidle3_6 : ∀ t : Fin cfg3.N, cfg3.idle 6 (cfg3.grid.coords t) = true ↔ t.val ≠ 99 :=
  (by decide +kernel : ∀ t : Fin grid3.N, idle3 6 (grid3.coords t) = true ↔ t.val ≠ 99)

theorem off0_3 : (![0, 0] : Fin 2 → ℕ) = fun _ => 0 := funext fun a => by fin_cases a <;> rfl

theorem cover_rP3 (w : Vec F S1024x128 .f32) (L : List (View.Piece (Elt F) S1024x128 .f32)) (y : S1024x128.Idx) :
    ∃ pc ∈ ((⟨rP3, w⟩ : View.Piece (Elt F) S1024x128 .f32) :: L), y ∈ pc.1.set :=
  ⟨_, List.mem_cons_self .., View.mem_set_unit_zero off0_3 inb_S1024x128_S1024x128_0_0 y⟩

section
variable (c : Dev nD) (i : grid3.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole)

theorem run3_B
    (hc1 : ¬cond3_1 i) (hc2 : ¬cond3_2 i)
    (x0 : Vec F S1000x128 .f32) (x1 : Vec F S1000x1 .i32) (a : Vec F S1024x128 .f32) (E : Set ℕ) (K : PUnit → sProp 𝕄) :
    iprop(owns (c : Thread nD τ) arg1 fullShare x0 ∗ owns (c : Thread nD τ) arg2 fullShare x1 ∗ owns (c : Thread nD τ) arg8 fullShare a
        ∗ (iprop(owns (c : Thread nD τ) arg1 fullShare x0 ∗ owns (c : Thread nD τ) arg2 fullShare x1
            ∗ owns (c : Thread nD τ) arg8 fullShare (View.canon [⟨rP3, k3_pay2 (View.ld x0 rX3) (View.ld x1 rB3) (View.ld a rP3)⟩])) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8) K := by
  simp only [cc3__pool_head_kernel_eq_skeleton]; unfold cc3__pool_head_kernel_skel
  unfold owns
  iintro ⟨⟨%f0, %hf0, H0⟩, ⟨%f1, %hf1, H1⟩, ⟨%f8, %hf8, H8⟩, Hk⟩
  obtain rfl := harg1.eq_unread hf0; obtain rfl := harg2.eq_unread hf1; obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H8
  ipureintro
  rw [View.read_writes_eq_canon _ _ _ (cover_rP3 _ _)]
  simp only [View.readAt_eq_ld, harg1.read_unread, harg2.read_unread, harg8.read_unread]

theorem run3_A
    (hc1 : cond3_1 i) (hc2 : ¬cond3_2 i)
    (x0 : Vec F S1000x128 .f32) (x1 : Vec F S1000x1 .i32) (E : Set ℕ) (K : PUnit → sProp 𝕄) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (View.canon [⟨rP3, k3_pay2 (View.ld x0 rX3) (View.ld x1 rB3) (View.ld (View.canon [⟨rP3, k3_pay1 (F := F)⟩]) rP3)⟩])) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8) K := by
  simp only [cc3__pool_head_kernel_eq_skeleton]; unfold cc3__pool_head_kernel_skel
  unfold owns
  iintro ⟨⟨%f0, %hf0, H0⟩, ⟨%f1, %hf1, H1⟩, ⟨%d8, %f8, -, H8⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H8
  ipureintro
  rw [View.read_writes_eq_canon _ _ _ (cover_rP3 _ _)]
  sl_unfold_run_names
  simp only [View.readAt_eq_ld, harg1.read_unread, harg2.read_unread, View.canon_cons_unit_zero (S := S1024x128) off0_3, View.canon_unit_zero (S := S1024x128) off0_3, View.ld_unit_zero (S := S1024x128) off0_3, View.readCov_unit_zero (S := S1024x128) _ off0_3]

theorem run3_C
    (hc1 : ¬cond3_1 i) (hc2 : cond3_2 i)
    (x0 : Vec F S1000x128 .f32) (x1 : Vec F S1000x1 .i32) (x2 : Vec F S128x128 .f32) (x3 : Vec F S1x128 .f32) (x4 : Vec F S128x128 .f32) (x5 : Vec F S1x128 .f32) (a : Vec F S1024x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 (View.canon [⟨rP3, k3_pay2 (View.ld x0 rX3) (View.ld x1 rB3) (View.ld a rP3)⟩]) x2 x3 x4 x5)
            ∗ owns (c : Thread nD τ) arg8 fullShare (View.canon [⟨rP3, k3_pay2 (View.ld x0 rX3) (View.ld x1 rB3) (View.ld a rP3)⟩])) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    rw [View.read_writes_eq_canon _ _ _ (cover_rP3 _ _)]
    unfold out3_6
    sl_unfold_run_names
    simp only [View.readAt_eq_ld, harg1.read_unread, harg2.read_unread, View.canon_cons_unit_zero (S := S1024x128) off0_3, View.canon_unit_zero (S := S1024x128) off0_3, View.ld_unit_zero (S := S1024x128) off0_3, View.readCov_unit_zero (S := S1024x128) _ off0_3, harg3.read_unread, harg4.read_unread, harg5.read_unread, harg6.read_unread, harg8.read_unread]
  iexists _; isplitr
  swap; · iexact H8
  ipureintro
  sl_unfold_run_names
  rw [View.read_writes_eq_canon _ _ _ (cover_rP3 _ _)]
  simp only [View.readAt_eq_ld, harg1.read_unread, harg2.read_unread, harg8.read_unread]

end

theorem acc3_zero (c : Dev nD) : acc3 V c 0 = View.canon [⟨rP3, k3_pay1 (F := F)⟩] := by rw [acc3.eq_1]

theorem acc3_succ (c : Dev nD) (t : Fin cfg3.N) :
    acc3 V c (t.val + 1) = View.canon [⟨rP3, k3_pay2 (View.ld (iblk3 V c 0 t) rX3) (View.ld (iblk3 V c 1 t) rB3) (View.ld (acc3 V c t.val) rP3)⟩] := by
  rw [acc3.eq_2]; exact dif_pos t.isLt

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_6_idle (c : Dev nD) (t : Fin cfg3.N) (h : t.val ≠ 99) :
    (dat3 V c).leavesExact 6 t = iprop(∃ d, owns (c : Thread nD τ) (st3_6 t) fullShare ((dat3 V c).before 6 t d)) :=
  (dat3 V c).leavesExact_idle 6 t ((hidle3_6 t).mpr h)
    (Bool.eq_false_iff.mpr fun hf => by have := (flush3_6 t).mp hf; have hN : t.val < 100 := lt_of_lt_of_eq t.isLt (show cfg3.N = 100 from N_3); omega)

theorem leaves3_6_last (c : Dev nD) (t : Fin cfg3.N) (h : t.val = 99) :
    (dat3 V c).leavesExact 6 t = owns (c : Thread nD τ) (st3_6 t) fullShare ((dat3 V c).after 6 t) := by
  have hi : cfg3.idle 6 (cfg3.grid.coords t) = false :=
    Bool.eq_false_iff.mpr fun hi => (hidle3_6 t).mp hi h
  unfold Dat.leavesExact; rw [hi]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (dat3 V c).leavesExact 6 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl,
    after3_0, after3_1, after3_2, after3_3, after3_4, after3_5, Φ_eq3, Φ_eq3]
  have hN : t.val < 100 := lt_of_lt_of_eq t.isLt (show cfg3.N = 100 from N_3)
  unfold Φ3
  simp only [Fin.coe_castSucc, Fin.val_succ]
  by_cases h0 : t.val = 0
  · have h99 : t.val ≠ 99 := by omega
    rw [leaves3_6_idle V c t h99]
    iintro ⟨⟨Hp, ⟨%X, -, HS⟩, HR⟩, Ho, ⟨%d0, H0⟩, ⟨%d1, H1⟩, ⟨%d2, H2⟩, ⟨%d3, H3⟩, ⟨%d4, H4⟩, ⟨%d5, H5⟩, ⟨%d6, H6⟩⟩
    iapply (run3_A c (grid3.coords t) _ _ _ _ _ _ _ _ _ _ _ _ _ _ _ _ ((hcond3_1 t).mpr h0) (fun h => h99 ((hcond3_2 t).mp h)) (iblk3 V c 0 t) (iblk3 V c 1 t) Set.univ _)
    isplitl [H0]; · iexact H0
    isplitl [H1]; · iexact H1
    isplitl [HS]; · iexists _; iexact HS
    iintro ⟨H0, H1, HS⟩
    isplitl [Hp HS HR]
    · isplitl [Hp]; · iexact Hp
      isplitl [HS]
      · iexists _; isplitr
        swap; · iexact HS
        ipureintro; intro _
        rw [acc3_succ V c t, h0, acc3_zero]; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  by_cases h99 : t.val = 99
  · rw [leaves3_6_last V c t h99, after3_6, acc3_succ V c t]
    iintro ⟨⟨Hp, ⟨%X, %hX, HS⟩, HR⟩, Ho, ⟨%d0, H0⟩, ⟨%d1, H1⟩, ⟨%d2, H2⟩, ⟨%d3, H3⟩, ⟨%d4, H4⟩, ⟨%d5, H5⟩, ⟨%d6, H6⟩⟩
    obtain rfl := hX h0
    iapply (run3_C c (grid3.coords t) _ _ _ _ _ _ _ _ _ _ _ _ _ _ _ _ (fun h => h0 ((hcond3_1 t).mp h)) ((hcond3_2 t).mpr h99) (iblk3 V c 0 t) (iblk3 V c 1 t) (iblk3 V c 2 t) (iblk3 V c 3 t) (iblk3 V c 4 t) (iblk3 V c 5 t) (acc3 V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hp HS HR]
    · isplitl [Hp]; · iexact Hp
      isplitl [HS]
      · iexists _; isplitr
        swap; · iexact HS
        ipureintro; intro _; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [leaves3_6_idle V c t h99, acc3_succ V c t]
    iintro ⟨⟨Hp, ⟨%X, %hX, HS⟩, HR⟩, Ho, ⟨%d0, H0⟩, ⟨%d1, H1⟩, ⟨%d2, H2⟩, ⟨%d3, H3⟩, ⟨%d4, H4⟩, ⟨%d5, H5⟩, ⟨%d6, H6⟩⟩
    obtain rfl := hX h0
    iapply (run3_B c (grid3.coords t) _ _ _ _ _ _ _ _ _ _ _ _ _ _ _ _ (fun h => h0 ((hcond3_1 t).mp h)) (fun h => h99 ((hcond3_2 t).mp h)) (iblk3 V c 0 t) (iblk3 V c 1 t) (acc3 V c t.val) Set.univ _)
    isplitl [H0]; · iexact H0
    isplitl [H1]; · iexact H1
    isplitl [HS]; · iexact HS
    iintro ⟨H0, H1, HS⟩
    isplitl [Hp HS HR]
    · isplitl [Hp]; · iexact Hp
      isplitl [HS]
      · iexists _; isplitr
        swap; · iexact HS
        ipureintro; intro _; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KF.RunDefs.lean ====
import proofs.«410344_j57440892617235_1_alg».proof.Proof.Gen.Kernel.Launch
import proofs.«410344_j57440892617235_1_alg».proof.Proof.Gen.Kernel.Skeleton
import proofs.«410344_j57440892617235_1_alg».proof.Proof.Gen.Kernel.Points
import proofs.«410344_j57440892617235_1_alg».proof.Proof.Gen.Kernel.Regions
import proofs.«410344_j57440892617235_1_alg».proof.Proof.KF.Mlp0
import proofs.«410344_j57440892617235_1_alg».proof.Proof.KF.Mlp1
import proofs.«410344_j57440892617235_1_alg».proof.Proof.KF.Mlp2
import proofs.«410344_j57440892617235_1_alg».proof.Proof.KF.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
theorem W4_keep (c : Dev nD) (b : Ref sig .tc) (hb : ∀ w, (cfg0.win w).isOut = true → Pipeline.arrRef spec0 w ≠ b) :
    W4 m ρ c (Proc.devRef .tc b) = W3 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (W4_arr m ρ c w).trans (((dat0 (V3 m ρ) c).arrAt_in w hin _).trans (A_eq0 (V3 m ρ) c w))
  · exact W4_of_ne m ρ c b fun w e => h ⟨w, e⟩

abbrev W5 : Dev nD → Valuation τ sig (Elt F) := fun c => StableHlo.after hostOps1 (W4 m ρ c)
abbrev W6 : Dev nD → Valuation τ sig (Elt F) := fun c => StableHlo.after hostOps1_1 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
theorem W7_keep (c : Dev nD) (b : Ref sig .tc) (hb : ∀ w, (cfg1.win w).isOut = true → Pipeline.arrRef spec1 w ≠ b) :
    W7 m ρ c (Proc.devRef .tc b) = W6 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (W7_arr m ρ c w).trans (((dat1 (V6 m ρ) c).arrAt_in w hin _).trans (A_eq1 (V6 m ρ) c w))
  · exact W7_of_ne m ρ c b fun w e => h ⟨w, e⟩

abbrev W8 : Dev nD → Valuation τ sig (Elt F) := fun c => StableHlo.after hostOps2 (W7 m ρ c)
abbrev W9 : Dev nD → Valuation τ sig (Elt F) := fun c => StableHlo.after hostOps2_1 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
theorem W10_keep (c : Dev nD) (b : Ref sig .tc) (hb : ∀ w, (cfg2.win w).isOut = true → Pipeline.arrRef spec2 w ≠ b) :
    W10 m ρ c (Proc.devRef .tc b) = W9 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (W10_arr m ρ c w).trans (((dat2 (V9 m ρ) c).arrAt_in w hin _).trans (A_eq2 (V9 m ρ) c w))
  · exact W10_of_ne m ρ c b fun w e => h ⟨w, e⟩

abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
theorem W12_keep (c : Dev nD) (b : Ref sig .tc) (hb : ∀ w, (cfg3.win w).isOut = true → Pipeline.arrRef spec3 w ≠ b) :
    W12 m ρ c (Proc.devRef .tc b) = W11 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (W12_arr m ρ c w).trans (((dat3 (V11 m ρ) c).arrAt_in w hin _).trans (A_eq3 (V11 m ρ) c w))
  · exact W12_of_ne m ρ c b fun w e => h ⟨w, e⟩

theorem W12_of_untouched (c : Dev nD) (b : Ref sig .tc)
    (h0 : b ∉ hostOps0_W) (h1 : b ∉ hostOps0_1_W) (h2 : b ∉ hostOps0_2_W)
    (h3 : ∀ w, (cfg0.win w).isOut = true → Pipeline.arrRef spec0 w ≠ b)
    (h4 : b ∉ hostOps1_W) (h5 : b ∉ hostOps1_1_W)
    (h6 : ∀ w, (cfg1.win w).isOut = true → Pipeline.arrRef spec1 w ≠ b)
    (h7 : b ∉ hostOps2_W) (h8 : b ∉ hostOps2_1_W)
    (h9 : ∀ w, (cfg2.win w).isOut = true → Pipeline.arrRef spec2 w ≠ b)
    (h10 : b ∉ hostOps3_W)
    (h11 : ∀ w, (cfg3.win w).isOut = true → Pipeline.arrRef spec3 w ≠ b) :
    W12 m ρ c (Proc.devRef .tc b) = m ((c : Thread nD τ).loc b) :=
  calc W12 m ρ c (Proc.devRef .tc b)
    _ = W11 m ρ c (Proc.devRef .tc b) := W12_keep m ρ c b h11
    _ = W10 m ρ c (Proc.devRef .tc b) := StableHlo.after_of_writes_sub hostOps3 _ hostOps3_writes h10
    _ = W9 m ρ c (Proc.devRef .tc b) := W10_keep m ρ c b h9
    _ = W8 m ρ c (Proc.devRef .tc b) := StableHlo.after_of_writes_sub hostOps2_1 _ hostOps2_1_writes h8
    _ = W7 m ρ c (Proc.devRef .tc b) := StableHlo.after_of_writes_sub hostOps2 _ hostOps2_writes h7
    _ = W6 m ρ c (Proc.devRef .tc b) := W7_keep m ρ c b h6
    _ = W5 m ρ c (Proc.devRef .tc b) := StableHlo.after_of_writes_sub hostOps1_1 _ hostOps1_1_writes h5
    _ = W4 m ρ c (Proc.devRef .tc b) := StableHlo.after_of_writes_sub hostOps1 _ hostOps1_writes h4
    _ = W3 m ρ c (Proc.devRef .tc b) := W4_keep m ρ c b h3
    _ = W2 m ρ c (Proc.devRef .tc b) := StableHlo.after_of_writes_sub hostOps0_2 _ hostOps0_2_writes h2
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

abbrev mainArgs : List (Ref sig .tc) :=
  [main_arg0, main_arg1, main_arg2, main_arg3, main_arg4, main_arg5, main_arg6, main_arg7, main_arg8, main_arg9, main_arg10, main_arg11, main_arg12, main_arg13, main_arg14]

/-- No host stretch writes an argument and no region has one as an output, so every argument ends as launched. -/
theorem W12_main_arg (c : Dev nD) (b : Ref sig .tc) (hb : b ∈ mainArgs) : W12 m ρ c (Proc.devRef .tc b) = m ((c : Thread nD τ).loc b) :=
  W12_of_untouched m ρ c b
    ((by decide : ∀ b ∈ mainArgs, b ∉ hostOps0_W) b hb)
    ((by decide : ∀ b ∈ mainArgs, b ∉ hostOps0_1_W) b hb)
    ((by decide : ∀ b ∈ mainArgs, b ∉ hostOps0_2_W) b hb)
    ((by decide : ∀ b ∈ mainArgs, ∀ w, (cfg0.win w).isOut = true → Pipeline.arrRef spec0 w ≠ b) b hb)
    ((by decide : ∀ b ∈ mainArgs, b ∉ hostOps1_W) b hb)
    ((by decide : ∀ b ∈ mainArgs, b ∉ hostOps1_1_W) b hb)
    ((by decide : ∀ b ∈ mainArgs, ∀ w, (cfg1.win w).isOut = true → Pipeline.arrRef spec1 w ≠ b) b hb)
    ((by decide : ∀ b ∈ mainArgs, b ∉ hostOps2_W) b hb)
    ((by decide : ∀ b ∈ mainArgs, b ∉ hostOps2_1_W) b hb)
    ((by decide : ∀ b ∈ mainArgs, ∀ w, (cfg2.win w).isOut = true → Pipeline.arrRef spec2 w ≠ b) b hb)
    ((by decide : ∀ b ∈ mainArgs, b ∉ hostOps3_W) b hb)
    ((by decide : ∀ b ∈ mainArgs, ∀ w, (cfg3.win w).isOut = true → Pipeline.arrRef spec3 w ≠ b) b hb)

theorem W12_main_v91 (c : Dev nD) : W12 m ρ c (Proc.devRef .tc main_v91) = (dat3 (V11 m ρ) c).arrAt 6 cfg3.N :=
  W12_arr m ρ c 6

def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V9 m ρ) c
  | ⟨3, _⟩ => fun c => dat3 (V11 m ρ) c

end Cert.Kernel.Fr

end
-- ==== Proof.KF.Run.lean ====
import proofs.«410344_j57440892617235_1_alg».proof.Proof.Gen.Kernel.Launch
import proofs.«410344_j57440892617235_1_alg».proof.Proof.Gen.Kernel.Skeleton
import proofs.«410344_j57440892617235_1_alg».proof.Proof.Gen.Kernel.Points
import proofs.«410344_j57440892617235_1_alg».proof.Proof.Gen.Kernel.Regions
import proofs.«410344_j57440892617235_1_alg».proof.Proof.KF.Mlp0
import proofs.«410344_j57440892617235_1_alg».proof.Proof.KF.Mlp1
import proofs.«410344_j57440892617235_1_alg».proof.Proof.KF.Mlp2
import proofs.«410344_j57440892617235_1_alg».proof.Proof.KF.Pool
import proofs.«410344_j57440892617235_1_alg».proof.Proof.KF.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V11 m ρ) c
  hout c := by
    rw [Pipeline.ownSems0_none]
    exact hout3 (V11 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .region (reg2 m ρ),
    .host (hseg hostOps3 hostOps3_sub hostOps3_fresh (W10 m ρ)),
    .region (reg3 m ρ) ]

theorem main_run (c : Dev nD) : main (F := F) c = Pipeline.Seg.run (segs m ρ) := by
  rw [main_chain c, Pipeline.Seg.run_eq_chain]
  rfl

set_option backward.isDefEq.respectTransparency.types false in
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- Every argument ends at the last boundary's contents, which are the launch's. -/
theorem arg_kept {s : MemSt nD τ sig (Elt F)}
    (h : ∀ c : Dev nD, ∀ b ∈ Pipeline.ucRefs τ sig, s.mem (((c : Thread nD τ)).1, b) = W12 m ρ c b)
    (c : Dev nD) (b : Ref sig .tc) (hb : b ∈ mainArgs) : s.mem ((c.tc : Thread nD τ).loc b) = m ((c.tc : Thread nD τ).loc b) :=
  (h c _ (mem_uc b ((by decide : ∀ b ∈ mainArgs, ¬(Proc.devRef .tc b : DevRef τ sig).isScoped) b hb))).trans (W12_main_arg m ρ c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide)⟩

end Cert.Kernel.Fr

end
-- ==== Proof.KIF.Mlp0.lean ====
import proofs.«410344_j57440892617235_1_alg».proof.Proof.Gen.KernelIdeal.Launch
import proofs.«410344_j57440892617235_1_alg».proof.Proof.Gen.KernelIdeal.Skeleton
import proofs.«410344_j57440892617235_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rV0 : Rect S1x128 := Rect.unit (s := S1x128) ![0, 0] S1x128.size inb_S1x128_S1x128_0_0

def out0_9 (x0 : Vec F S5000x128 .f32) (x1 : Vec F S128x128 .f32) (x2 x3 x4 x5 x6 : Vec F S1x128 .f32) (x7 : Vec F S128x128 .f32) (x8 : Vec F S1x128 .f32) : Vec F S5000x128 .f32 :=
  View.canon [⟨rA0, k0_pay1 (k0_pay2 (View.ld x0 rA0) (View.ld x1 rW0) (View.ld x2 rV0) (View.ld x5 rV0) (View.ld x6 rV0) (View.ld x3 rV0) (View.ld x4 rV0) (View.ld x7 rW0) (View.ld x8 rV0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

theorem before0 (c : Dev nD) (t : Fin cfg0.N) : ∀ w : Fin cfg0.W, w ≠ 9 → ∀ d, (dat0 V c).before w t d = (dat0 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat0 V c).before_in_eq_fetched _ rfl (fun _ => rfl) (fun _ _ _ => rfl) (fun _ => rfl) t d
  | ⟨9, _⟩, h, _ => absurd rfl h

theorem before0_0 (c : Dev nD) (t : Fin cfg0.N) (d) : (dat0 V c).before 0 t d = iblk0 V c 0 t := before0 V c t 0 (by decide) d
theorem before0_1 (c : Dev nD) (t : Fin cfg0.N) (d) : (dat0 V c).before 1 t d = iblk0 V c 1 t := before0 V c t 1 (by decide) d
theorem before0_2 (c : Dev nD) (t : Fin cfg0.N) (d) : (dat0 V c).before 2 t d = iblk0 V c 2 t := before0 V c t 2 (by decide) d
theorem before0_3 (c : Dev nD) (t : Fin cfg0.N) (d) : (dat0 V c).before 3 t d = iblk0 V c 3 t := before0 V c t 3 (by decide) d
theorem before0_4 (c : Dev nD) (t : Fin cfg0.N) (d) : (dat0 V c).before 4 t d = iblk0 V c 4 t := before0 V c t 4 (by decide) d
theorem before0_5 (c : Dev nD) (t : Fin cfg0.N) (d) : (dat0 V c).before 5 t d = iblk0 V c 5 t := before0 V c t 5 (by decide) d
theorem before0_6 (c : Dev nD) (t : Fin cfg0.N) (d) : (dat0 V c).before 6 t d = iblk0 V c 6 t := before0 V c t 6 (by decide) d
theorem before0_7 (c : Dev nD) (t : Fin cfg0.N) (d) : (dat0 V c).before 7 t d = iblk0 V c 7 t := before0 V c t 7 (by decide) d
theorem before0_8 (c : Dev nD) (t : Fin cfg0.N) (d) : (dat0 V c).before 8 t d = iblk0 V c 8 t := before0 V c t 8 (by decide) d

theorem cover0_9 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

/-- Under any frame `P ∗ Q` the body returns its nine inputs unchanged and, in the output, `out0_9` of them: its one store covers the block. -/
theorem sound_body_mlp {D0 D1 D2 D3 D4 D5 D6 D7 D8 D9 : Type} (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x128 .f32) (harg8 : arg8.IsWhole)
    (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (g : D9 → Vec F S5000x128 .f32) (P Q : sProp 𝕄) :
    iprop(P ∗ Q
        ∗ (∃ _ : D0, owns (c : Thread nD τ) arg1 fullShare x0) ∗ (∃ _ : D1, owns (c : Thread nD τ) arg2 fullShare x1)
        ∗ (∃ _ : D2, owns (c : Thread nD τ) arg3 fullShare x2) ∗ (∃ _ : D3, owns (c : Thread nD τ) arg4 fullShare x3)
        ∗ (∃ _ : D4, owns (c : Thread nD τ) arg5 fullShare x4) ∗ (∃ _ : D5, owns (c : Thread nD τ) arg6 fullShare x5)
        ∗ (∃ _ : D6, owns (c : Thread nD τ) arg7 fullShare x6) ∗ (∃ _ : D7, owns (c : Thread nD τ) arg8 fullShare x7)
        ∗ (∃ _ : D8, owns (c : Thread nD τ) arg9 fullShare x8) ∗ (∃ d : D9, owns (c : Thread nD τ) arg10 fullShare (g d)))
      ⊢ wp frame (wpE (defs₀ (F := F)) Variants.none c none) Set.univ
          (cc0__mlp_kernel i arg1 harg1 arg2 harg2 arg3 harg3 arg4 harg4 arg5 harg5 arg6 harg6 arg7 harg7 arg8 harg8 arg9 harg9 arg10 harg10)
          (fun _ => iprop(P ∗ Q
            ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8))) := by
  simp only [cc0__mlp_kernel_eq_skeleton]; unfold cc0__mlp_kernel_skel
  unfold owns
  iintro ⟨HP, HQ, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩,
    ⟨%_, %f6, %hf6, H6⟩, ⟨%_, %f7, %hf7, H7⟩, ⟨%_, %f8, %hf8, H8⟩, ⟨%d9, %f9, -, H9⟩⟩
  subst hf0; subst hf1; subst hf2; subst hf3; subst hf4; subst hf5; subst hf6; subst hf7; subst hf8
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

theorem body_obligation0 (c : Dev nD) : BodyObligation (dat0 (F := F) V c) (defs₀ (F := F)) Variants.none () Set.univ := fun t => by
  rw [bigSep_W0, bigSep_W0]
  simp only [before0_0, before0_1, before0_2, before0_3, before0_4, before0_5, before0_6, before0_7, before0_8]
  rw [after0_0, after0_1, after0_2, after0_3, after0_4, after0_5, after0_6, after0_7, after0_8, after0_9]
  show _ ⊢ wp _ _ _ (bodyAt0 t) _
  unfold bodyAt0
  exact sound_body_mlp c _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _ _ _

end Cert.KernelIdeal.Fr

end
-- ==== Proof.KIF.Mlp1.lean ====
import proofs.«410344_j57440892617235_1_alg».proof.Proof.Gen.KernelIdeal.Launch
import proofs.«410344_j57440892617235_1_alg».proof.Proof.Gen.KernelIdeal.Skeleton
import proofs.«410344_j57440892617235_1_alg».proof.Proof.Gen.KernelIdeal.Points
import proofs.«410344_j57440892617235_1_alg».proof.Proof.KIF.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rV1 : Rect S1x128 := Rect.unit (s := S1x128) ![0, 0] S1x128.size inb_S1x128_S1x128_0_0

def out1_9 (x0 : Vec F S5000x128 .f32) (x1 : Vec F S128x128 .f32) (x2 x3 x4 x5 x6 : Vec F S1x128 .f32) (x7 : Vec F S128x128 .f32) (x8 : Vec F S1x128 .f32) : Vec F S5000x128 .f32 :=
  View.canon [⟨rA1, k1_pay1 (k1_pay2 (View.ld x0 rA1) (View.ld x1 rW1) (View.ld x2 rV1) (View.ld x5 rV1) (View.ld x6 rV1) (View.ld x3 rV1) (View.ld x4 rV1) (View.ld x7 rW1) (View.ld x8 rV1))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

theorem before1 (c : Dev nD) (t : Fin cfg1.N) : ∀ w : Fin cfg1.W, w ≠ 9 → ∀ d, (dat1 V c).before w t d = (dat1 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat1 V c).before_in_eq_fetched _ rfl (fun _ => rfl) (fun _ _ _ => rfl) (fun _ => rfl) t d
  | ⟨9, _⟩, h, _ => absurd rfl h

theorem before1_0 (c : Dev nD) (t : Fin cfg1.N) (d) : (dat1 V c).before 0 t d = iblk1 V c 0 t := before1 V c t 0 (by decide) d
theorem before1_1 (c : Dev nD) (t : Fin cfg1.N) (d) : (dat1 V c).before 1 t d = iblk1 V c 1 t := before1 V c t 1 (by decide) d
theorem before1_2 (c : Dev nD) (t : Fin cfg1.N) (d) : (dat1 V c).before 2 t d = iblk1 V c 2 t := before1 V c t 2 (by decide) d
theorem before1_3 (c : Dev nD) (t : Fin cfg1.N) (d) : (dat1 V c).before 3 t d = iblk1 V c 3 t := before1 V c t 3 (by decide) d
theorem before1_4 (c : Dev nD) (t : Fin cfg1.N) (d) : (dat1 V c).before 4 t d = iblk1 V c 4 t := before1 V c t 4 (by decide) d
theorem before1_5 (c : Dev nD) (t : Fin cfg1.N) (d) : (dat1 V c).before 5 t d = iblk1 V c 5 t := before1 V c t 5 (by decide) d
theorem before1_6 (c : Dev nD) (t : Fin cfg1.N) (d) : (dat1 V c).before 6 t d = iblk1 V c 6 t := before1 V c t 6 (by decide) d
theorem before1_7 (c : Dev nD) (t : Fin cfg1.N) (d) : (dat1 V c).before 7 t d = iblk1 V c 7 t := before1 V c t 7 (by decide) d
theorem before1_8 (c : Dev nD) (t : Fin cfg1.N) (d) : (dat1 V c).before 8 t d = iblk1 V c 8 t := before1 V c t 8 (by decide) d

/-- Region 1's body and output block are region 0's: the same text under another name. -/
theorem cc1_eq : @cc1__mlp_kernel F _ = @cc0__mlp_kernel F _ := rfl
theorem out1_9_eq : @out1_9 F _ = @out0_9 F _ := rfl

theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7, before1_8]
  rw [after1_0, after1_1, after1_2, after1_3, after1_4, after1_5, after1_6, after1_7, after1_8, after1_9, out1_9_eq]
  show _ ⊢ wp _ _ _ (bodyAt1 t) _
  unfold bodyAt1
  rw [cc1_eq]
  exact sound_body_mlp c _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _ _ _

end Cert.KernelIdeal.Fr

end
-- ==== Proof.KIF.Mlp2.lean ====
import proofs.«410344_j57440892617235_1_alg».proof.Proof.Gen.KernelIdeal.Launch
import proofs.«410344_j57440892617235_1_alg».proof.Proof.Gen.KernelIdeal.Skeleton
import proofs.«410344_j57440892617235_1_alg».proof.Proof.Gen.KernelIdeal.Points
import proofs.«410344_j57440892617235_1_alg».proof.Proof.KIF.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rV2 : Rect S1x128 := Rect.unit (s := S1x128) ![0, 0] S1x128.size inb_S1x128_S1x128_0_0

def out2_9 (x0 : Vec F S5000x128 .f32) (x1 : Vec F S128x128 .f32) (x2 x3 x4 x5 x6 : Vec F S1x128 .f32) (x7 : Vec F S128x128 .f32) (x8 : Vec F S1x128 .f32) : Vec F S5000x128 .f32 :=
  View.canon [⟨rA2, k2_pay1 (k2_pay2 (View.ld x0 rA2) (View.ld x1 rW2) (View.ld x2 rV2) (View.ld x5 rV2) (View.ld x6 rV2) (View.ld x3 rV2) (View.ld x4 rV2) (View.ld x7 rW2) (View.ld x8 rV2))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]

theorem before2 (c : Dev nD) (t : Fin cfg2.N) : ∀ w : Fin cfg2.W, w ≠ 9 → ∀ d, (dat2 V c).before w t d = (dat2 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat2 V c).before_in_eq_fetched _ rfl (fun _ => rfl) (fun _ _ _ => rfl) (fun _ => rfl) t d
  | ⟨9, _⟩, h, _ => absurd rfl h

theorem before2_0 (c : Dev nD) (t : Fin cfg2.N) (d) : (dat2 V c).before 0 t d = iblk2 V c 0 t := before2 V c t 0 (by decide) d
theorem before2_1 (c : Dev nD) (t : Fin cfg2.N) (d) : (dat2 V c).before 1 t d = iblk2 V c 1 t := before2 V c t 1 (by decide) d
theorem before2_2 (c : Dev nD) (t : Fin cfg2.N) (d) : (dat2 V c).before 2 t d = iblk2 V c 2 t := before2 V c t 2 (by decide) d
theorem before2_3 (c : Dev nD) (t : Fin cfg2.N) (d) : (dat2 V c).before 3 t d = iblk2 V c 3 t := before2 V c t 3 (by decide) d
theorem before2_4 (c : Dev nD) (t : Fin cfg2.N) (d) : (dat2 V c).before 4 t d = iblk2 V c 4 t := before2 V c t 4 (by decide) d
theorem before2_5 (c : Dev nD) (t : Fin cfg2.N) (d) : (dat2 V c).before 5 t d = iblk2 V c 5 t := before2 V c t 5 (by decide) d
theorem before2_6 (c : Dev nD) (t : Fin cfg2.N) (d) : (dat2 V c).before 6 t d = iblk2 V c 6 t := before2 V c t 6 (by decide) d
theorem before2_7 (c : Dev nD) (t : Fin cfg2.N) (d) : (dat2 V c).before 7 t d = iblk2 V c 7 t := before2 V c t 7 (by decide) d
theorem before2_8 (c : Dev nD) (t : Fin cfg2.N) (d) : (dat2 V c).before 8 t d = iblk2 V c 8 t := before2 V c t 8 (by decide) d

/-- Region 1's body and output block are region 0's: the same text under another name. -/
theorem cc2_eq : @cc2__mlp_kernel F _ = @cc0__mlp_kernel F _ := rfl
theorem out2_9_eq : @out2_9 F _ = @out0_9 F _ := rfl

theorem body_obligation2 (c : Dev nD) : BodyObligation (dat2 (F := F) V c) (defs₀ (F := F)) Variants.none () Set.univ := fun t => by
  rw [bigSep_W2, bigSep_W2]
  simp only [before2_0, before2_1, before2_2, before2_3, before2_4, before2_5, before2_6, before2_7, before2_8]
  rw [after2_0, after2_1, after2_2, after2_3, after2_4, after2_5, after2_6, after2_7, after2_8, after2_9, out2_9_eq]
  show _ ⊢ wp _ _ _ (bodyAt2 t) _
  unfold bodyAt2
  rw [cc2_eq]
  exact sound_body_mlp c _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) _ _ _

end Cert.KernelIdeal.Fr

end
-- ==== Proof.KIF.Pool.lean ====
import proofs.«410344_j57440892617235_1_alg».proof.Proof.Gen.KernelIdeal.Launch
import proofs.«410344_j57440892617235_1_alg».proof.Proof.Gen.KernelIdeal.Skeleton
import proofs.«410344_j57440892617235_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rP3 : Rect S1024x128 := Rect.unit (s := S1024x128) ![0, 0] S1024x128.size inb_S1024x128_S1024x128_0_0
abbrev rX3 : Rect S1000x128 := Rect.unit (s := S1000x128) ![0, 0] S1000x128.size inb_S1000x128_S1000x128_0_0
abbrev rB3 : Rect S1000x1 := Rect.unit (s := S1000x1) ![0, 0] S1000x1.size inb_S1000x1_S1000x1_0_0
abbrev rW3 : Rect S128x128 := Rect.unit (s := S128x128) ![0, 0] S128x128.size inb_S128x128_S128x128_0_0
abbrev rV3 : Rect S1x128 := Rect.unit (s := S1x128) ![0, 0] S1x128.size inb_S1x128_S1x128_0_0

def acc3 (c : Dev nD) : ℕ → Vec F S1024x128 .f32
  | 0 => View.canon [⟨rP3, k3_pay1 (F := F)⟩]
  | n + 1 => if h : n < cfg3.N then
      View.canon [⟨rP3, k3_pay2 (View.ld (iblk3 V c 0 ⟨n, h⟩) rX3) (View.ld (iblk3 V c 1 ⟨n, h⟩) rB3) (View.ld (acc3 c n) rP3)⟩]
    else acc3 c n

def out3_6 (a : Vec F S1024x128 .f32) (w1 : Vec F S128x128 .f32) (b1 : Vec F S1x128 .f32) (w2 : Vec F S128x128 .f32) (b2 : Vec F S1x128 .f32) : Vec F S1024x128 .f32 :=
  View.canon [⟨rP3, k3_pay3 (View.ld a rP3) (View.ld w1 rW3) (View.ld b1 rV3) (View.ld w2 rW3) (View.ld b2 rV3)⟩]

abbrev scr3 : Memref sig .tc .vmem S1024x128 .f32 := Memref.whole cc3_scratch0

def Φ3 (c : Dev nD) (t : Fin (cfg3.N + 1)) : sProp 𝕄 :=
  iprop((∃ r, prngReg c r)
    ∗ (∃ X : Vec F S1024x128 .f32, ⌜t.val ≠ 0 → X = acc3 V c t.val⌝ ∗ owns (c : Thread nD τ) scr3 fullShare X)
    ∗ Pipeline.scopedRestBut (Ix := Unit) (Name := ℕ) (U := UR sig nD τ) (Lvl := ℕ) (Val := Elt F) spec3 c [cc3_scratch0])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (acc3 V c (t.val + 1)) (iblk3 V c 2 t) (iblk3 V c 3 t) (iblk3 V c 4 t) (iblk3 V c 5 t)
  Φ := Φ3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (acc3 V c (t.val + 1)) (iblk3 V c 2 t) (iblk3 V c 3 t) (iblk3 V c 4 t) (iblk3 V c 5 t) := by
  dsimp only [dat3]

theorem Φ_eq3 (c : Dev nD) (t : Fin (cfg3.N + 1)) : (dat3 V c).Φ t = Φ3 V c t := by dsimp only [dat3]

theorem scr_eq3 (c : Dev nD) (f : Buf (Elt F) ((c : Thread nD τ).loc cc3_scratch0)) :
    ((scr3.view.loc (c : Thread nD τ)) ↦[scr3.view.set]{fullShare} f : sProp 𝕄)
      = ((c : Thread nD τ).loc cc3_scratch0) ↦{fullShare} f := by
  simp only [Memref.view_whole, View.set_whole]

theorem hin3 (c : Dev nD) : iprop((∃ r, prngReg c r) ∗ Pipeline.prefHeld (Ix := Unit) (Name := ℕ) (U := UR sig nD τ) (Lvl := ℕ) (pcfgs (F := F) 3).pre c (fun _ => fullShare) ((cfgs 3).toPCfg_adm (Val := Elt F)).1 ∗ Pipeline.scopedRest (Ix := Unit) (Name := ℕ) (U := UR sig nD τ) (Lvl := ℕ) (Val := Elt F) spec3 c) ⊢ (dat3 V c).Φ 0 := by
  rw [Φ_eq3, scopedRest3_split]
  unfold Φ3
  iintro ⟨Hp, -, ⟨%f, HS⟩, HR⟩
  isplitl [Hp]; · iexact Hp
  isplitl [HS]
  · iexists (scr3.view.read (Elt F) f); isplitr; · ipureintro; intro h; exact absurd rfl h
    unfold owns; iexists f; isplitr; · ipureintro; rfl
    rw [scr_eq3]; iexact HS
  iexact HR

theorem hout3 (c : Dev nD) : (dat3 V c).Φ (Fin.last cfg3.N) ⊢ (iprop((∃ r, prngReg c r) ∗ emp ∗ Pipeline.scopedRest (Ix := Unit) (Name := ℕ) (U := UR sig nD τ) (Lvl := ℕ) (Val := Elt F) spec3 c) : sProp 𝕄) := by
  rw [Φ_eq3, scopedRest3_split]
  unfold Φ3 owns
  iintro ⟨Hp, ⟨%X, -, %f, -, HS⟩, HR⟩
  isplitl [Hp]; · iexact Hp
  isplitr; · iempintro
  isplitl [HS]
  · iexists f; rw [← scr_eq3]; iexact HS
  iexact HR

abbrev cond3_1 (i : grid3.Coords) : Prop := (Scalar.cmpi .ne (Scalar.extui (Scalar.cmpi .eq (BitVec.ofNat 32 (i 0).val) 0#32)) 0#32) = 1#1
abbrev cond3_2 (i : grid3.Coords) : Prop := k3_cond2 i = 1#1

theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 99 :=
  (by decide +kernel : ∀ t : Fin grid3.N, cond3_2 (grid3.coords t) ↔ t.val = 99)
theorem hidle3_6 : ∀ t : Fin cfg3.N, cfg3.idle 6 (cfg3.grid.coords t) = true ↔ t.val ≠ 99 :=
  (by decide +kernel : ∀ t : Fin grid3.N, idle3 6 (grid3.coords t) = true ↔ t.val ≠ 99)

theorem off0_3 : (![0, 0] : Fin 2 → ℕ) = fun _ => 0 := funext fun a => by fin_cases a <;> rfl

theorem cover_rP3 (w : Vec F S1024x128 .f32) (L : List (View.Piece (Elt F) S1024x128 .f32)) (y : S1024x128.Idx) :
    ∃ pc ∈ ((⟨rP3, w⟩ : View.Piece (Elt F) S1024x128 .f32) :: L), y ∈ pc.1.set :=
  ⟨_, List.mem_cons_self .., View.mem_set_unit_zero off0_3 inb_S1024x128_S1024x128_0_0 y⟩

section
variable (c : Dev nD) (i : grid3.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole)

theorem run3_B
    (hc1 : ¬cond3_1 i) (hc2 : ¬cond3_2 i)
    (x0 : Vec F S1000x128 .f32) (x1 : Vec F S1000x1 .i32) (a : Vec F S1024x128 .f32) (E : Set ℕ) (K : PUnit → sProp 𝕄) :
    iprop(owns (c : Thread nD τ) arg1 fullShare x0 ∗ owns (c : Thread nD τ) arg2 fullShare x1 ∗ owns (c : Thread nD τ) arg8 fullShare a
        ∗ (iprop(owns (c : Thread nD τ) arg1 fullShare x0 ∗ owns (c : Thread nD τ) arg2 fullShare x1
            ∗ owns (c : Thread nD τ) arg8 fullShare (View.canon [⟨rP3, k3_pay2 (View.ld x0 rX3) (View.ld x1 rB3) (View.ld a rP3)⟩])) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8) K := by
  simp only [cc3__pool_head_kernel_eq_skeleton]; unfold cc3__pool_head_kernel_skel
  unfold owns
  iintro ⟨⟨%f0, %hf0, H0⟩, ⟨%f1, %hf1, H1⟩, ⟨%f8, %hf8, H8⟩, Hk⟩
  obtain rfl := harg1.eq_unread hf0; obtain rfl := harg2.eq_unread hf1; obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H8
  ipureintro
  rw [View.read_writes_eq_canon _ _ _ (cover_rP3 _ _)]
  simp only [View.readAt_eq_ld, harg1.read_unread, harg2.read_unread, harg8.read_unread]

theorem run3_A
    (hc1 : cond3_1 i) (hc2 : ¬cond3_2 i)
    (x0 : Vec F S1000x128 .f32) (x1 : Vec F S1000x1 .i32) (E : Set ℕ) (K : PUnit → sProp 𝕄) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (View.canon [⟨rP3, k3_pay2 (View.ld x0 rX3) (View.ld x1 rB3) (View.ld (View.canon [⟨rP3, k3_pay1 (F := F)⟩]) rP3)⟩])) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8) K := by
  simp only [cc3__pool_head_kernel_eq_skeleton]; unfold cc3__pool_head_kernel_skel
  unfold owns
  iintro ⟨⟨%f0, %hf0, H0⟩, ⟨%f1, %hf1, H1⟩, ⟨%d8, %f8, -, H8⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H8
  ipureintro
  rw [View.read_writes_eq_canon _ _ _ (cover_rP3 _ _)]
  sl_unfold_run_names
  simp only [View.readAt_eq_ld, harg1.read_unread, harg2.read_unread, View.canon_cons_unit_zero (S := S1024x128) off0_3, View.canon_unit_zero (S := S1024x128) off0_3, View.ld_unit_zero (S := S1024x128) off0_3, View.readCov_unit_zero (S := S1024x128) _ off0_3]

theorem run3_C
    (hc1 : ¬cond3_1 i) (hc2 : cond3_2 i)
    (x0 : Vec F S1000x128 .f32) (x1 : Vec F S1000x1 .i32) (x2 : Vec F S128x128 .f32) (x3 : Vec F S1x128 .f32) (x4 : Vec F S128x128 .f32) (x5 : Vec F S1x128 .f32) (a : Vec F S1024x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 (View.canon [⟨rP3, k3_pay2 (View.ld x0 rX3) (View.ld x1 rB3) (View.ld a rP3)⟩]) x2 x3 x4 x5)
            ∗ owns (c : Thread nD τ) arg8 fullShare (View.canon [⟨rP3, k3_pay2 (View.ld x0 rX3) (View.ld x1 rB3) (View.ld a rP3)⟩])) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    rw [View.read_writes_eq_canon _ _ _ (cover_rP3 _ _)]
    unfold out3_6
    sl_unfold_run_names
    simp only [View.readAt_eq_ld, harg1.read_unread, harg2.read_unread, View.canon_cons_unit_zero (S := S1024x128) off0_3, View.canon_unit_zero (S := S1024x128) off0_3, View.ld_unit_zero (S := S1024x128) off0_3, View.readCov_unit_zero (S := S1024x128) _ off0_3, harg3.read_unread, harg4.read_unread, harg5.read_unread, harg6.read_unread, harg8.read_unread]
  iexists _; isplitr
  swap; · iexact H8
  ipureintro
  sl_unfold_run_names
  rw [View.read_writes_eq_canon _ _ _ (cover_rP3 _ _)]
  simp only [View.readAt_eq_ld, harg1.read_unread, harg2.read_unread, harg8.read_unread]

end

theorem acc3_zero (c : Dev nD) : acc3 V c 0 = View.canon [⟨rP3, k3_pay1 (F := F)⟩] := by rw [acc3.eq_1]

theorem acc3_succ (c : Dev nD) (t : Fin cfg3.N) :
    acc3 V c (t.val + 1) = View.canon [⟨rP3, k3_pay2 (View.ld (iblk3 V c 0 t) rX3) (View.ld (iblk3 V c 1 t) rB3) (View.ld (acc3 V c t.val) rP3)⟩] := by
  rw [acc3.eq_2]; exact dif_pos t.isLt

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_6_idle (c : Dev nD) (t : Fin cfg3.N) (h : t.val ≠ 99) :
    (dat3 V c).leavesExact 6 t = iprop(∃ d, owns (c : Thread nD τ) (st3_6 t) fullShare ((dat3 V c).before 6 t d)) :=
  (dat3 V c).leavesExact_idle 6 t ((hidle3_6 t).mpr h)
    (Bool.eq_false_iff.mpr fun hf => by have := (flush3_6 t).mp hf; have hN : t.val < 100 := lt_of_lt_of_eq t.isLt (show cfg3.N = 100 from N_3); omega)

theorem leaves3_6_last (c : Dev nD) (t : Fin cfg3.N) (h : t.val = 99) :
    (dat3 V c).leavesExact 6 t = owns (c : Thread nD τ) (st3_6 t) fullShare ((dat3 V c).after 6 t) := by
  have hi : cfg3.idle 6 (cfg3.grid.coords t) = false :=
    Bool.eq_false_iff.mpr fun hi => (hidle3_6 t).mp hi h
  unfold Dat.leavesExact; rw [hi]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (dat3 V c).leavesExact 6 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl,
    after3_0, after3_1, after3_2, after3_3, after3_4, after3_5, Φ_eq3, Φ_eq3]
  have hN : t.val < 100 := lt_of_lt_of_eq t.isLt (show cfg3.N = 100 from N_3)
  unfold Φ3
  simp only [Fin.coe_castSucc, Fin.val_succ]
  by_cases h0 : t.val = 0
  · have h99 : t.val ≠ 99 := by omega
    rw [leaves3_6_idle V c t h99]
    iintro ⟨⟨Hp, ⟨%X, -, HS⟩, HR⟩, Ho, ⟨%d0, H0⟩, ⟨%d1, H1⟩, ⟨%d2, H2⟩, ⟨%d3, H3⟩, ⟨%d4, H4⟩, ⟨%d5, H5⟩, ⟨%d6, H6⟩⟩
    iapply (run3_A c (grid3.coords t) _ _ _ _ _ _ _ _ _ _ _ _ _ _ _ _ ((hcond3_1 t).mpr h0) (fun h => h99 ((hcond3_2 t).mp h)) (iblk3 V c 0 t) (iblk3 V c 1 t) Set.univ _)
    isplitl [H0]; · iexact H0
    isplitl [H1]; · iexact H1
    isplitl [HS]; · iexists _; iexact HS
    iintro ⟨H0, H1, HS⟩
    isplitl [Hp HS HR]
    · isplitl [Hp]; · iexact Hp
      isplitl [HS]
      · iexists _; isplitr
        swap; · iexact HS
        ipureintro; intro _
        rw [acc3_succ V c t, h0, acc3_zero]; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  by_cases h99 : t.val = 99
  · rw [leaves3_6_last V c t h99, after3_6, acc3_succ V c t]
    iintro ⟨⟨Hp, ⟨%X, %hX, HS⟩, HR⟩, Ho, ⟨%d0, H0⟩, ⟨%d1, H1⟩, ⟨%d2, H2⟩, ⟨%d3, H3⟩, ⟨%d4, H4⟩, ⟨%d5, H5⟩, ⟨%d6, H6⟩⟩
    obtain rfl := hX h0
    iapply (run3_C c (grid3.coords t) _ _ _ _ _ _ _ _ _ _ _ _ _ _ _ _ (fun h => h0 ((hcond3_1 t).mp h)) ((hcond3_2 t).mpr h99) (iblk3 V c 0 t) (iblk3 V c 1 t) (iblk3 V c 2 t) (iblk3 V c 3 t) (iblk3 V c 4 t) (iblk3 V c 5 t) (acc3 V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hp HS HR]
    · isplitl [Hp]; · iexact Hp
      isplitl [HS]
      · iexists _; isplitr
        swap; · iexact HS
        ipureintro; intro _; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [leaves3_6_idle V c t h99, acc3_succ V c t]
    iintro ⟨⟨Hp, ⟨%X, %hX, HS⟩, HR⟩, Ho, ⟨%d0, H0⟩, ⟨%d1, H1⟩, ⟨%d2, H2⟩, ⟨%d3, H3⟩, ⟨%d4, H4⟩, ⟨%d5, H5⟩, ⟨%d6, H6⟩⟩
    obtain rfl := hX h0
    iapply (run3_B c (grid3.coords t) _ _ _ _ _ _ _ _ _ _ _ _ _ _ _ _ (fun h => h0 ((hcond3_1 t).mp h)) (fun h => h99 ((hcond3_2 t).mp h)) (iblk3 V c 0 t) (iblk3 V c 1 t) (acc3 V c t.val) Set.univ _)
    isplitl [H0]; · iexact H0
    isplitl [H1]; · iexact H1
    isplitl [HS]; · iexact HS
    iintro ⟨H0, H1, HS⟩
    isplitl [Hp HS HR]
    · isplitl [Hp]; · iexact Hp
      isplitl [HS]
      · iexists _; isplitr
        swap; · iexact HS
        ipureintro; intro _; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIF.RunDefs.lean ====
import proofs.«410344_j57440892617235_1_alg».proof.Proof.Gen.KernelIdeal.Launch
import proofs.«410344_j57440892617235_1_alg».proof.Proof.Gen.KernelIdeal.Skeleton
import proofs.«410344_j57440892617235_1_alg».proof.Proof.Gen.KernelIdeal.Points
import proofs.«410344_j57440892617235_1_alg».proof.Proof.Gen.KernelIdeal.Regions
import proofs.«410344_j57440892617235_1_alg».proof.Proof.KIF.Mlp0
import proofs.«410344_j57440892617235_1_alg».proof.Proof.KIF.Mlp1
import proofs.«410344_j57440892617235_1_alg».proof.Proof.KIF.Mlp2
import proofs.«410344_j57440892617235_1_alg».proof.Proof.KIF.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
theorem W4_keep (c : Dev nD) (b : Ref sig .tc) (hb : ∀ w, (cfg0.win w).isOut = true → Pipeline.arrRef spec0 w ≠ b) :
    W4 m ρ c (Proc.devRef .tc b) = W3 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (W4_arr m ρ c w).trans (((dat0 (V3 m ρ) c).arrAt_in w hin _).trans (A_eq0 (V3 m ρ) c w))
  · exact W4_of_ne m ρ c b fun w e => h ⟨w, e⟩

abbrev W5 : Dev nD → Valuation τ sig (Elt F) := fun c => StableHlo.after hostOps1 (W4 m ρ c)
abbrev W6 : Dev nD → Valuation τ sig (Elt F) := fun c => StableHlo.after hostOps1_1 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
theorem W7_keep (c : Dev nD) (b : Ref sig .tc) (hb : ∀ w, (cfg1.win w).isOut = true → Pipeline.arrRef spec1 w ≠ b) :
    W7 m ρ c (Proc.devRef .tc b) = W6 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (W7_arr m ρ c w).trans (((dat1 (V6 m ρ) c).arrAt_in w hin _).trans (A_eq1 (V6 m ρ) c w))
  · exact W7_of_ne m ρ c b fun w e => h ⟨w, e⟩

abbrev W8 : Dev nD → Valuation τ sig (Elt F) := fun c => StableHlo.after hostOps2 (W7 m ρ c)
abbrev W9 : Dev nD → Valuation τ sig (Elt F) := fun c => StableHlo.after hostOps2_1 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
theorem W10_keep (c : Dev nD) (b : Ref sig .tc) (hb : ∀ w, (cfg2.win w).isOut = true → Pipeline.arrRef spec2 w ≠ b) :
    W10 m ρ c (Proc.devRef .tc b) = W9 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (W10_arr m ρ c w).trans (((dat2 (V9 m ρ) c).arrAt_in w hin _).trans (A_eq2 (V9 m ρ) c w))
  · exact W10_of_ne m ρ c b fun w e => h ⟨w, e⟩

abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
theorem W12_keep (c : Dev nD) (b : Ref sig .tc) (hb : ∀ w, (cfg3.win w).isOut = true → Pipeline.arrRef spec3 w ≠ b) :
    W12 m ρ c (Proc.devRef .tc b) = W11 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (W12_arr m ρ c w).trans (((dat3 (V11 m ρ) c).arrAt_in w hin _).trans (A_eq3 (V11 m ρ) c w))
  · exact W12_of_ne m ρ c b fun w e => h ⟨w, e⟩

theorem W12_of_untouched (c : Dev nD) (b : Ref sig .tc)
    (h0 : b ∉ hostOps0_W) (h1 : b ∉ hostOps0_1_W) (h2 : b ∉ hostOps0_2_W)
    (h3 : ∀ w, (cfg0.win w).isOut = true → Pipeline.arrRef spec0 w ≠ b)
    (h4 : b ∉ hostOps1_W) (h5 : b ∉ hostOps1_1_W)
    (h6 : ∀ w, (cfg1.win w).isOut = true → Pipeline.arrRef spec1 w ≠ b)
    (h7 : b ∉ hostOps2_W) (h8 : b ∉ hostOps2_1_W)
    (h9 : ∀ w, (cfg2.win w).isOut = true → Pipeline.arrRef spec2 w ≠ b)
    (h10 : b ∉ hostOps3_W)
    (h11 : ∀ w, (cfg3.win w).isOut = true → Pipeline.arrRef spec3 w ≠ b) :
    W12 m ρ c (Proc.devRef .tc b) = m ((c : Thread nD τ).loc b) :=
  calc W12 m ρ c (Proc.devRef .tc b)
    _ = W11 m ρ c (Proc.devRef .tc b) := W12_keep m ρ c b h11
    _ = W10 m ρ c (Proc.devRef .tc b) := StableHlo.after_of_writes_sub hostOps3 _ hostOps3_writes h10
    _ = W9 m ρ c (Proc.devRef .tc b) := W10_keep m ρ c b h9
    _ = W8 m ρ c (Proc.devRef .tc b) := StableHlo.after_of_writes_sub hostOps2_1 _ hostOps2_1_writes h8
    _ = W7 m ρ c (Proc.devRef .tc b) := StableHlo.after_of_writes_sub hostOps2 _ hostOps2_writes h7
    _ = W6 m ρ c (Proc.devRef .tc b) := W7_keep m ρ c b h6
    _ = W5 m ρ c (Proc.devRef .tc b) := StableHlo.after_of_writes_sub hostOps1_1 _ hostOps1_1_writes h5
    _ = W4 m ρ c (Proc.devRef .tc b) := StableHlo.after_of_writes_sub hostOps1 _ hostOps1_writes h4
    _ = W3 m ρ c (Proc.devRef .tc b) := W4_keep m ρ c b h3
    _ = W2 m ρ c (Proc.devRef .tc b) := StableHlo.after_of_writes_sub hostOps0_2 _ hostOps0_2_writes h2
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

abbrev mainArgs : List (Ref sig .tc) :=
  [main_arg0, main_arg1, main_arg2, main_arg3, main_arg4, main_arg5, main_arg6, main_arg7, main_arg8, main_arg9, main_arg10, main_arg11, main_arg12, main_arg13, main_arg14]

/-- No host stretch writes an argument and no region has one as an output, so every argument ends as launched. -/
theorem W12_main_arg (c : Dev nD) (b : Ref sig .tc) (hb : b ∈ mainArgs) : W12 m ρ c (Proc.devRef .tc b) = m ((c : Thread nD τ).loc b) :=
  W12_of_untouched m ρ c b
    ((by decide : ∀ b ∈ mainArgs, b ∉ hostOps0_W) b hb)
    ((by decide : ∀ b ∈ mainArgs, b ∉ hostOps0_1_W) b hb)
    ((by decide : ∀ b ∈ mainArgs, b ∉ hostOps0_2_W) b hb)
    ((by decide : ∀ b ∈ mainArgs, ∀ w, (cfg0.win w).isOut = true → Pipeline.arrRef spec0 w ≠ b) b hb)
    ((by decide : ∀ b ∈ mainArgs, b ∉ hostOps1_W) b hb)
    ((by decide : ∀ b ∈ mainArgs, b ∉ hostOps1_1_W) b hb)
    ((by decide : ∀ b ∈ mainArgs, ∀ w, (cfg1.win w).isOut = true → Pipeline.arrRef spec1 w ≠ b) b hb)
    ((by decide : ∀ b ∈ mainArgs, b ∉ hostOps2_W) b hb)
    ((by decide : ∀ b ∈ mainArgs, b ∉ hostOps2_1_W) b hb)
    ((by decide : ∀ b ∈ mainArgs, ∀ w, (cfg2.win w).isOut = true → Pipeline.arrRef spec2 w ≠ b) b hb)
    ((by decide : ∀ b ∈ mainArgs, b ∉ hostOps3_W) b hb)
    ((by decide : ∀ b ∈ mainArgs, ∀ w, (cfg3.win w).isOut = true → Pipeline.arrRef spec3 w ≠ b) b hb)

theorem W12_main_v91 (c : Dev nD) : W12 m ρ c (Proc.devRef .tc main_v91) = (dat3 (V11 m ρ) c).arrAt 6 cfg3.N :=
  W12_arr m ρ c 6

def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V9 m ρ) c
  | ⟨3, _⟩ => fun c => dat3 (V11 m ρ) c

end Cert.KernelIdeal.Fr

end
-- ==== Proof.KIF.Run.lean ====
import proofs.«410344_j57440892617235_1_alg».proof.Proof.Gen.KernelIdeal.Launch
import proofs.«410344_j57440892617235_1_alg».proof.Proof.Gen.KernelIdeal.Skeleton
import proofs.«410344_j57440892617235_1_alg».proof.Proof.Gen.KernelIdeal.Points
import proofs.«410344_j57440892617235_1_alg».proof.Proof.Gen.KernelIdeal.Regions
import proofs.«410344_j57440892617235_1_alg».proof.Proof.KIF.Mlp0
import proofs.«410344_j57440892617235_1_alg».proof.Proof.KIF.Mlp1
import proofs.«410344_j57440892617235_1_alg».proof.Proof.KIF.Mlp2
import proofs.«410344_j57440892617235_1_alg».proof.Proof.KIF.Pool
import proofs.«410344_j57440892617235_1_alg».proof.Proof.KIF.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V11 m ρ) c
  hout c := by
    rw [Pipeline.ownSems0_none]
    exact hout3 (V11 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .region (reg2 m ρ),
    .host (hseg hostOps3 hostOps3_sub hostOps3_fresh (W10 m ρ)),
    .region (reg3 m ρ) ]

theorem main_run (c : Dev nD) : main (F := F) c = Pipeline.Seg.run (segs m ρ) := by
  rw [main_chain c, Pipeline.Seg.run_eq_chain]
  rfl

set_option backward.isDefEq.respectTransparency.types false in
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- Every argument ends at the last boundary's contents, which are the launch's. -/
theorem arg_kept {s : MemSt nD τ sig (Elt F)}
    (h : ∀ c : Dev nD, ∀ b ∈ Pipeline.ucRefs τ sig, s.mem (((c : Thread nD τ)).1, b) = W12 m ρ c b)
    (c : Dev nD) (b : Ref sig .tc) (hb : b ∈ mainArgs) : s.mem ((c.tc : Thread nD τ).loc b) = m ((c.tc : Thread nD τ).loc b) :=
  (h c _ (mem_uc b ((by decide : ∀ b ∈ mainArgs, ¬(Proc.devRef .tc b : DevRef τ sig).isScoped) b hb))).trans (W12_main_arg m ρ c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ fun s h c =>
    ⟨arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide),
     arg_kept m ρ h c _ (by decide)⟩

end Cert.KernelIdeal.Fr

end
-- ==== Proof.RefTerms.lean ====
import proofs.«410344_j57440892617235_1_alg».proof.Proof.Gen.ReferenceIdeal
import Idealize.ShloMosaic.PureOps.Ideal

noncomputable section

namespace Cert.RefTerms

open Cert.ReferenceIdeal Cert.ReferenceIdeal.Gen Idealize.ShloMosaic

variable {F : FTy → Type} [FloatOps F]

def srcRow (ei : IVec S2x1600000 32) : IVec S1600000 32 :=
  shapeCast _ (extractStridedSlice S1x1600000 ![0, 0] ei slices_S2x1600000_S1x1600000_0_0) shapeCasts_S1x1600000_S1600000

def dstRow (ei : IVec S2x1600000 32) : IVec S1600000 32 :=
  shapeCast _ (extractStridedSlice S1x1600000 ![1, 0] ei slices_S2x1600000_S1x1600000_1_0) shapeCasts_S1x1600000_S1600000

def wrapIdx (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

def zerosN : FVec F S100000x128 .f32 := broadcastInDim S100000x128 ![] bcast_S_S100000x128 (constant S_ .f32 0x00000000#32)

def refAgg (X : FVec F S100000x128 .f32) (ei : IVec S2x1600000 32) : FVec F S100000x128 .f32 :=
  addf X (Host.scatterAdd scatter_S100000x128_S1600000x1_S1600000x128_1_0_0_1 (zerosN (F := F))
    (broadcastInDim S1600000x1 ![0] bcast_S1600000_S1600000x1_0 (dstRow ei))
    (Host.gather gather_S100000x128_S1600000x1_S1600000x128_1_0_n_n_0_1_1128 X
      (broadcastInDim S1600000x1 ![0] bcast_S1600000_S1600000x1_0 (wrapIdx (srcRow ei)))))

def bc (v : FVec F S128 .f32) : FVec F S100000x128 .f32 :=
  broadcastInDim S100000x128 ![0, 1] bcast_S1x128_S100000x128_0_1 (broadcastInDim S1x128 ![1] bcast_S128_S1x128_1 v)

def refMlp (H : FVec F S100000x128 .f32) (W1 : FVec F S128x128 .f32) (b1 mean var gamma beta : FVec F S128 .f32)
    (W2 : FVec F S128x128 .f32) (b2 : FVec F S128 .f32) : FVec F S100000x128 .f32 :=
  maximumf (addf (Host.dotGeneral dot_S100000x128_S128x128_S100000x128_1_0_0_1_n_n none
    (maximumf (addf (mulf (mulf (subf (addf (Host.dotGeneral dot_S100000x128_S128x128_S100000x128_1_0_0_1_n_n none H W1) (bc b1)) (bc mean))
      (bc (Host.rsqrt (addf var (broadcastInDim S128 ![] bcast_S_S128 (constant S_ .f32 0x3727C5AC#32)))))) (bc gamma)) (bc beta)) (zerosN (F := F)))
    W2) (bc b2)) (zerosN (F := F))

def rowW0 (A : FVec F S3x128x128 .f32) : FVec F S128x128 .f32 :=
  shapeCast _ (extractStridedSlice S1x128x128 ![0, 0, 0] A slices_S3x128x128_S1x128x128_0_0_0) shapeCasts_S1x128x128_S128x128
def rowV0 (A : FVec F S3x128 .f32) : FVec F S128 .f32 :=
  shapeCast _ (extractStridedSlice S1x128 ![0, 0] A slices_S3x128_S1x128_0_0) shapeCasts_S1x128_S128
def refLayer0 (X : FVec F S100000x128 .f32) (ei : IVec S2x1600000 32) (W1 : FVec F S3x128x128 .f32) (b1 gamma beta mean var : FVec F S3x128 .f32)
    (W2 : FVec F S3x128x128 .f32) (b2 : FVec F S3x128 .f32) : FVec F S100000x128 .f32 :=
  refMlp (refAgg X ei) (rowW0 W1) (rowV0 b1) (rowV0 mean) (rowV0 var) (rowV0 gamma) (rowV0 beta) (rowW0 W2) (rowV0 b2)

def rowW1 (A : FVec F S3x128x128 .f32) : FVec F S128x128 .f32 :=
  shapeCast _ (extractStridedSlice S1x128x128 ![1, 0, 0] A slices_S3x128x128_S1x128x128_1_0_0) shapeCasts_S1x128x128_S128x128
def rowV1 (A : FVec F S3x128 .f32) : FVec F S128 .f32 :=
  shapeCast _ (extractStridedSlice S1x128 ![1, 0] A slices_S3x128_S1x128_1_0) shapeCasts_S1x128_S128
def refLayer1 (X : FVec F S100000x128 .f32) (ei : IVec S2x1600000 32) (W1 : FVec F S3x128x128 .f32) (b1 gamma beta mean var : FVec F S3x128 .f32)
    (W2 : FVec F S3x128x128 .f32) (b2 : FVec F S3x128 .f32) : FVec F S100000x128 .f32 :=
  refMlp (refAgg X ei) (rowW1 W1) (rowV1 b1) (rowV1 mean) (rowV1 var) (rowV1 gamma) (rowV1 beta) (rowW1 W2) (rowV1 b2)

def rowW2 (A : FVec F S3x128x128 .f32) : FVec F S128x128 .f32 :=
  shapeCast _ (extractStridedSlice S1x128x128 ![2, 0, 0] A slices_S3x128x128_S1x128x128_2_0_0) shapeCasts_S1x128x128_S128x128
def rowV2 (A : FVec F S3x128 .f32) : FVec F S128 .f32 :=
  shapeCast _ (extractStridedSlice S1x128 ![2, 0] A slices_S3x128_S1x128_2_0) shapeCasts_S1x128_S128
def refLayer2 (X : FVec F S100000x128 .f32) (ei : IVec S2x1600000 32) (W1 : FVec F S3x128x128 .f32) (b1 gamma beta mean var : FVec F S3x128 .f32)
    (W2 : FVec F S3x128x128 .f32) (b2 : FVec F S3x128 .f32) : FVec F S100000x128 .f32 :=
  refMlp (refAgg X ei) (rowW2 W1) (rowV2 b1) (rowV2 mean) (rowV2 var) (rowV2 gamma) (rowV2 beta) (rowW2 W2) (rowV2 b2)

def zerosG : FVec F S1024x128 .f32 := broadcastInDim S1024x128 ![] bcast_S_S1024x128 (constant S_ .f32 0x00000000#32)

def bcG (v : FVec F S128 .f32) : FVec F S1024x128 .f32 :=
  broadcastInDim S1024x128 ![0, 1] bcast_S1x128_S1024x128_0_1 (broadcastInDim S1x128 ![1] bcast_S128_S1x128_1 v)

def refPoolHead (X : FVec F S100000x128 .f32) (batch : IVec S100000 32) (hW1 : FVec F S128x128 .f32) (hb1 : FVec F S128 .f32)
    (hW2 : FVec F S128x128 .f32) (hb2 : FVec F S128 .f32) : FVec F S1024x128 .f32 :=
  addf (Host.dotGeneral dot_S1024x128_S128x128_S1024x128_1_0_0_1_n_n none
    (maximumf (addf (Host.dotGeneral dot_S1024x128_S128x128_S1024x128_1_0_0_1_n_n none
      (Host.scatterAdd scatter_S1024x128_S100000x1_S100000x128_1_0_0_1 (zerosG (F := F)) (broadcastInDim S100000x1 ![0] bcast_S100000_S100000x1_0 batch) X)
      hW1) (bcG hb1)) (zerosG (F := F)))
    hW2) (bcG hb2)

def refAll (x : FVec F S100000x128 .f32) (ei : IVec S2x1600000 32) (batch : IVec S100000 32) (W1 : FVec F S3x128x128 .f32)
    (b1 gamma beta mean var : FVec F S3x128 .f32) (W2 : FVec F S3x128x128 .f32) (b2 : FVec F S3x128 .f32)
    (hW1 : FVec F S128x128 .f32) (hb1 : FVec F S128 .f32) (hW2 : FVec F S128x128 .f32) (hb2 : FVec F S128 .f32) : FVec F S1024x128 .f32 :=
  refPoolHead (refLayer2 (refLayer1 (refLayer0 x ei W1 b1 gamma beta mean var W2 b2) ei W1 b1 gamma beta mean var W2 b2) ei W1 b1 gamma beta mean var W2 b2)
    batch hW1 hb1 hW2 hb2

end Cert.RefTerms

end
-- ==== Proof.RefBridge.lean ====
import proofs.«410344_j57440892617235_1_alg».proof.Proof.RefTerms
import proofs.«410344_j57440892617235_1_alg».proof.Proof.Gen.ReferenceIdeal.Run

noncomputable section

namespace Cert.RefTerms

open Cert.ReferenceIdeal Cert.ReferenceIdeal.Gen Idealize.ShloMosaic Idealize.ShloMosaic.TcCoe Idealize.SL.Sem

variable {F : FTy → Type} [FloatOps F]

theorem res_eq (m : (ℓ : Loc nD τ sig) → Buf (Elt F) ℓ) (c : Dev nD) :
    Cert.ReferenceIdeal.Value.res_main_v171 m c =
      refAll (F := F) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) := by
  unfold Cert.ReferenceIdeal.Value.res_main_v171 refAll refPoolHead refLayer2 refLayer1 refLayer0 refMlp refAgg bc bcG zerosN zerosG
    rowW0 rowW1 rowW2 rowV0 rowV1 rowV2 wrapIdx srcRow dstRow
  rfl

end Cert.RefTerms

end
-- ==== Proof.KIF.RunKeep.lean ====
import proofs.«410344_j57440892617235_1_alg».proof.Proof.Gen.KernelIdeal.Launch
import proofs.«410344_j57440892617235_1_alg».proof.Proof.Gen.KernelIdeal.Regions
import proofs.«410344_j57440892617235_1_alg».proof.Proof.KIF.RunDefs
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_of (c : Dev nD) (b : Ref sig .tc) (h : b ∉ hostOps0_1_W) :
    W2 m ρ c (Proc.devRef .tc b) = W1 m ρ c (Proc.devRef .tc b) :=
  StableHlo.after_of_writes_sub hostOps0_1 _ hostOps0_1_writes h
theorem W3_of (c : Dev nD) (b : Ref sig .tc) (h : b ∉ hostOps0_2_W) :
    W3 m ρ c (Proc.devRef .tc b) = W2 m ρ c (Proc.devRef .tc b) :=
  StableHlo.after_of_writes_sub hostOps0_2 _ hostOps0_2_writes h
theorem W5_of (c : Dev nD) (b : Ref sig .tc) (h : b ∉ hostOps1_W) :
    W5 m ρ c (Proc.devRef .tc b) = W4 m ρ c (Proc.devRef .tc b) :=
  StableHlo.after_of_writes_sub hostOps1 _ hostOps1_writes h
theorem W6_of (c : Dev nD) (b : Ref sig .tc) (h : b ∉ hostOps1_1_W) :
    W6 m ρ c (Proc.devRef .tc b) = W5 m ρ c (Proc.devRef .tc b) :=
  StableHlo.after_of_writes_sub hostOps1_1 _ hostOps1_1_writes h
theorem W8_of (c : Dev nD) (b : Ref sig .tc) (h : b ∉ hostOps2_W) :
    W8 m ρ c (Proc.devRef .tc b) = W7 m ρ c (Proc.devRef .tc b) :=
  StableHlo.after_of_writes_sub hostOps2 _ hostOps2_writes h
theorem W9_of (c : Dev nD) (b : Ref sig .tc) (h : b ∉ hostOps2_1_W) :
    W9 m ρ c (Proc.devRef .tc b) = W8 m ρ c (Proc.devRef .tc b) :=
  StableHlo.after_of_writes_sub hostOps2_1 _ hostOps2_1_writes h
theorem W11_of (c : Dev nD) (b : Ref sig .tc) (h : b ∉ hostOps3_W) :
    W11 m ρ c (Proc.devRef .tc b) = W10 m ρ c (Proc.devRef .tc b) :=
  StableHlo.after_of_writes_sub hostOps3 _ hostOps3_writes h

abbrev KeptFrom1 (b : Ref sig .tc) : Prop :=
  b ∉ hostOps0_1_W ∧ b ∉ hostOps0_2_W
    ∧ (∀ w, (cfg0.win w).isOut = true → Pipeline.arrRef spec0 w ≠ b)
    ∧ b ∉ hostOps1_W ∧ b ∉ hostOps1_1_W
    ∧ (∀ w, (cfg1.win w).isOut = true → Pipeline.arrRef spec1 w ≠ b)
    ∧ b ∉ hostOps2_W ∧ b ∉ hostOps2_1_W
    ∧ (∀ w, (cfg2.win w).isOut = true → Pipeline.arrRef spec2 w ≠ b)
    ∧ b ∉ hostOps3_W
    ∧ (∀ w, (cfg3.win w).isOut = true → Pipeline.arrRef spec3 w ≠ b)

theorem from1_all (c : Dev nD) (b : Ref sig .tc) (h : KeptFrom1 b) :
    W2 m ρ c (Proc.devRef .tc b) = W1 m ρ c (Proc.devRef .tc b)
    ∧ W3 m ρ c (Proc.devRef .tc b) = W1 m ρ c (Proc.devRef .tc b)
    ∧ W4 m ρ c (Proc.devRef .tc b) = W1 m ρ c (Proc.devRef .tc b)
    ∧ W5 m ρ c (Proc.devRef .tc b) = W1 m ρ c (Proc.devRef .tc b)
    ∧ W6 m ρ c (Proc.devRef .tc b) = W1 m ρ c (Proc.devRef .tc b)
    ∧ W7 m ρ c (Proc.devRef .tc b) = W1 m ρ c (Proc.devRef .tc b)
    ∧ W8 m ρ c (Proc.devRef .tc b) = W1 m ρ c (Proc.devRef .tc b)
    ∧ W9 m ρ c (Proc.devRef .tc b) = W1 m ρ c (Proc.devRef .tc b)
    ∧ W10 m ρ c (Proc.devRef .tc b) = W1 m ρ c (Proc.devRef .tc b)
    ∧ W11 m ρ c (Proc.devRef .tc b) = W1 m ρ c (Proc.devRef .tc b)
    ∧ W12 m ρ c (Proc.devRef .tc b) = W1 m ρ c (Proc.devRef .tc b) := by
  obtain ⟨h2, h3, h4, h5, h6, h7, h8, h9, h10, h11, h12⟩ := h
  have e2 := W2_of m ρ c b h2
  have e3 := (W3_of m ρ c b h3).trans e2
  have e4 := (W4_keep m ρ c b h4).trans e3
  have e5 := (W5_of m ρ c b h5).trans e4
  have e6 := (W6_of m ρ c b h6).trans e5
  have e7 := (W7_keep m ρ c b h7).trans e6
  have e8 := (W8_of m ρ c b h8).trans e7
  have e9 := (W9_of m ρ c b h9).trans e8
  have e10 := (W10_keep m ρ c b h10).trans e9
  have e11 := (W11_of m ρ c b h11).trans e10
  have e12 := (W12_keep m ρ c b h12).trans e11
  exact ⟨e2, e3, e4, e5, e6, e7, e8, e9, e10, e11, e12⟩

theorem W2_from1 (c : Dev nD) (b : Ref sig .tc) (h : KeptFrom1 b) : W2 m ρ c (Proc.devRef .tc b) = W1 m ρ c (Proc.devRef .tc b) :=
  (from1_all m ρ c b h).1
theorem W4_from1 (c : Dev nD) (b : Ref sig .tc) (h : KeptFrom1 b) : W4 m ρ c (Proc.devRef .tc b) = W1 m ρ c (Proc.devRef .tc b) :=
  (from1_all m ρ c b h).2.2.1
theorem W5_from1 (c : Dev nD) (b : Ref sig .tc) (h : KeptFrom1 b) : W5 m ρ c (Proc.devRef .tc b) = W1 m ρ c (Proc.devRef .tc b) :=
  (from1_all m ρ c b h).2.2.2.1
theorem W7_from1 (c : Dev nD) (b : Ref sig .tc) (h : KeptFrom1 b) : W7 m ρ c (Proc.devRef .tc b) = W1 m ρ c (Proc.devRef .tc b) :=
  (from1_all m ρ c b h).2.2.2.2.2.1
theorem W8_from1 (c : Dev nD) (b : Ref sig .tc) (h : KeptFrom1 b) : W8 m ρ c (Proc.devRef .tc b) = W1 m ρ c (Proc.devRef .tc b) :=
  (from1_all m ρ c b h).2.2.2.2.2.2.1
theorem W10_from1 (c : Dev nD) (b : Ref sig .tc) (h : KeptFrom1 b) : W10 m ρ c (Proc.devRef .tc b) = W1 m ρ c (Proc.devRef .tc b) :=
  (from1_all m ρ c b h).2.2.2.2.2.2.2.2.1
theorem W11_from1 (c : Dev nD) (b : Ref sig .tc) (h : KeptFrom1 b) : W11 m ρ c (Proc.devRef .tc b) = W1 m ρ c (Proc.devRef .tc b) :=
  (from1_all m ρ c b h).2.2.2.2.2.2.2.2.2.1

theorem kept_main_v1 : KeptFrom1 main_v1 := by decide
theorem kept_main_v3 : KeptFrom1 main_v3 := by decide
theorem kept_main_v4 : KeptFrom1 main_v4 := by decide

abbrev Untouched (b : Ref sig .tc) : Prop := b ∉ hostOps0_W ∧ KeptFrom1 b

theorem W0_launch (c : Dev nD) (b : Ref sig .tc) : W0 m ρ c (Proc.devRef .tc b) = m ((c : Thread nD τ).loc b) := rfl
theorem W1_untouched (c : Dev nD) (b : Ref sig .tc) (h : Untouched b) : W1 m ρ c (Proc.devRef .tc b) = m ((c : Thread nD τ).loc b) :=
  (W1_of m ρ c b h.1).trans (W0_launch m ρ c b)
theorem W2_untouched (c : Dev nD) (b : Ref sig .tc) (h : Untouched b) : W2 m ρ c (Proc.devRef .tc b) = m ((c : Thread nD τ).loc b) :=
  (W2_from1 m ρ c b h.2).trans (W1_untouched m ρ c b h)
theorem W5_untouched (c : Dev nD) (b : Ref sig .tc) (h : Untouched b) : W5 m ρ c (Proc.devRef .tc b) = m ((c : Thread nD τ).loc b) :=
  (W5_from1 m ρ c b h.2).trans (W1_untouched m ρ c b h)
theorem W8_untouched (c : Dev nD) (b : Ref sig .tc) (h : Untouched b) : W8 m ρ c (Proc.devRef .tc b) = m ((c : Thread nD τ).loc b) :=
  (W8_from1 m ρ c b h.2).trans (W1_untouched m ρ c b h)
theorem W10_untouched (c : Dev nD) (b : Ref sig .tc) (h : Untouched b) : W10 m ρ c (Proc.devRef .tc b) = m ((c : Thread nD τ).loc b) :=
  (W10_from1 m ρ c b h.2).trans (W1_untouched m ρ c b h)
theorem W11_untouched (c : Dev nD) (b : Ref sig .tc) (h : Untouched b) : W11 m ρ c (Proc.devRef .tc b) = m ((c : Thread nD τ).loc b) :=
  (W11_from1 m ρ c b h.2).trans (W1_untouched m ρ c b h)

theorem untouched_main_arg0 : Untouched main_arg0 := by decide
theorem untouched_main_arg3 : Untouched main_arg3 := by decide
theorem untouched_main_arg4 : Untouched main_arg4 := by decide
theorem untouched_main_arg5 : Untouched main_arg5 := by decide
theorem untouched_main_arg6 : Untouched main_arg6 := by decide
theorem untouched_main_arg7 : Untouched main_arg7 := by decide
theorem untouched_main_arg8 : Untouched main_arg8 := by decide
theorem untouched_main_arg9 : Untouched main_arg9 := by decide
theorem untouched_main_arg10 : Untouched main_arg10 := by decide
theorem untouched_main_arg11 : Untouched main_arg11 := by decide
theorem untouched_main_arg12 : Untouched main_arg12 := by decide
theorem untouched_main_arg13 : Untouched main_arg13 := by decide
theorem untouched_main_arg14 : Untouched main_arg14 := by decide

theorem W4_main_v32 (c : Dev nD) : W4 m ρ c (Proc.devRef .tc main_v32) = (dat0 (V3 m ρ) c).arrAt 9 cfg0.N :=
  W4_arr m ρ c 9
theorem W5_main_v32 (c : Dev nD) : W5 m ρ c (Proc.devRef .tc main_v32) = W4 m ρ c (Proc.devRef .tc main_v32) :=
  W5_of m ρ c main_v32 (by decide)

theorem W7_main_v60 (c : Dev nD) : W7 m ρ c (Proc.devRef .tc main_v60) = (dat1 (V6 m ρ) c).arrAt 9 cfg1.N :=
  W7_arr m ρ c 9
theorem W8_main_v60 (c : Dev nD) : W8 m ρ c (Proc.devRef .tc main_v60) = W7 m ρ c (Proc.devRef .tc main_v60) :=
  W8_of m ρ c main_v60 (by decide)

theorem W10_main_v88 (c : Dev nD) : W10 m ρ c (Proc.devRef .tc main_v88) = (dat2 (V9 m ρ) c).arrAt 9 cfg2.N :=
  W10_arr m ρ c 9
theorem W11_main_v88 (c : Dev nD) : W11 m ρ c (Proc.devRef .tc main_v88) = W10 m ρ c (Proc.devRef .tc main_v88) :=
  W11_of m ρ c main_v88 (by decide)

end Cert.KernelIdeal.Fr

end
-- ==== Proof.KIV.HostTake.lean ====
import proofs.«410344_j57440892617235_1_alg».proof.Proof.Gen.KernelIdeal.Launch
import Idealize.ShloMosaic.Lib.ReduceAll

noncomputable section

namespace Cert.KernelIdeal.Val

open Cert.KernelIdeal Cert.KernelIdeal.Gen
open Idealize.ShloMosaic Idealize.ShloMosaic.TcCoe Idealize.SL.Sem

def srcRow (a1 : IVec S2x1600000 32) : IVec S1600000 32 :=
  shapeCast S1600000 (extractStridedSlice S1x1600000 ![0, 0] a1 slices_S2x1600000_S1x1600000_0_0) shapeCasts_S1x1600000_S1600000

def dstRow (a1 : IVec S2x1600000 32) : IVec S1600000 32 :=
  shapeCast S1600000 (extractStridedSlice S1x1600000 ![1, 0] a1 slices_S2x1600000_S1x1600000_1_0) shapeCasts_S1x1600000_S1600000

/-- The index a row is taken at: a negative word has 100000 added. -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

def idxCol (src : IVec S1600000 32) : IVec S1600000x1 32 :=
  broadcastInDim S1600000x1 ![0] bcast_S1600000_S1600000x1_0 (wrapIdx src)

/-- The row mask of the take: 0 ≤ index ≤ 99999. -/
def takeMask (src : IVec S1600000 32) : IVec S1600000x128 1 :=
  broadcastInDim S1600000x128 ![0] bcast_S1600000_S1600000x128_0
    (Host.reduce IntOp.andi
      (andi (cmpi .sge (idxCol src) (broadcastInDim S1600000x1 ![] bcast_S_S1600000x1 (constantI S_ 32 0#32)))
        (cmpi .sle (idxCol src) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- A word in [-100000, 100000), wrapped, lies in [0, 99999]: the signed sum with 100000 does not overflow. -/
theorem wrap_word (w : BitVec 32) (h0 : -100000 ≤ w.toInt) (h1 : w.toInt < 100000) :
    IntOp.cmpi .sge (Scalar.select (IntOp.cmpi .slt w 0#32) (IntOp.addi w 100000#32) w) 0#32 = 1#1
    ∧ IntOp.cmpi .sle (Scalar.select (IntOp.cmpi .slt w 0#32) (IntOp.addi w 100000#32) w) 99999#32 = 1#1 := by
  have z0 : (0#32 : BitVec 32).toInt = 0 := by decide
  have z1 : (99999#32 : BitVec 32).toInt = 99999 := by decide
  have z2 : (100000#32 : BitVec 32).toInt = 100000 := by decide
  rw [IntOp.cmpi_sge, IntOp.cmpi_sle, z0, z1]
  unfold Scalar.select
  by_cases hn : w.toInt < 0
  · have hc : IntOp.cmpi .slt w 0#32 = 1 := IntOp.cmpi_slt.2 (by rw [z0]; exact hn)
    rw [if_pos hc]
    have ha : (IntOp.addi w 100000#32).toInt = w.toInt + 100000 := by
      unfold IntOp.addi
      rw [BitVec.toInt_add, z2]
      exact Int.bmod_eq_of_le (by omega) (by omega)
    rw [ha]; omega
  · have hc : ¬ IntOp.cmpi .slt w 0#32 = 1 := fun hc => hn (by have := IntOp.cmpi_slt.1 hc; rwa [z0] at this)
    rw [if_neg hc]; omega

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduce by and, from 1, of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-- With every source word in [-100000, 100000) the mask is one everywhere, -/
theorem takeMask_one (src : IVec S1600000 32) (hsrc : ∀ e, -100000 ≤ (src e).toInt ∧ (src e).toInt < 100000)
    (k : S1600000x128.Idx) : takeMask src k = 1#1 := by
  unfold takeMask
  show Host.reduce IntOp.andi _ _ _ _ _ = 1#1
  refine reduce_andi_ones _ _ _ _ (fun i => ?_) (fun _ => rfl) _
  exact IntOp.andi_eq_one.2 (wrap_word _ (hsrc _).1 (hsrc _).2)

/-- so the select by the mask keeps its first branch. -/
theorem select_takeMask {α : Type} (src : IVec S1600000 32) (hsrc : ∀ e, -100000 ≤ (src e).toInt ∧ (src e).toInt < 100000)
    (a b : S1600000x128.Idx → α) : select (takeMask src) a b = a := by
  funext k
  show Scalar.select (takeMask src k) (a k) (b k) = a k
  rw [takeMask_one src hsrc k]
  rfl

/-- Contents carried to a typed reference's buffer and back are the contents. -/
theorem ofBuf_toBuf {sig : RefSig} {Val : EltTy → Type} {T : BufTy} (x : StableHlo.TRef sig T) (v : T.Contents Val) :
    x.ofBuf (x.toBuf v) = v := by
  obtain ⟨r, h, od, us⟩ := x
  cases h
  rfl

end Cert.KernelIdeal.Val
-- ==== Proof.KIV.Host.lean ====
import proofs.«410344_j57440892617235_1_alg».proof.Proof.Gen.KernelIdeal.Regions
import proofs.«410344_j57440892617235_1_alg».proof.Proof.KIV.HostTake
import Idealize.ShloMosaic.Lib.StableHlo.Run

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]
variable (U : Valuation τ sig (Elt F))

/-! The first stretch cuts the edge list into its two rows and writes the batch vector as a column; the last writes the
    head's two bias vectors as rows. -/

theorem h0_src : (StableHlo.after (hostOps0 (F := F)) U (Proc.devRef .tc main_v1) : IVec S1600000 32)
    = srcRow (U (Proc.devRef .tc main_arg1)) := by
  after_results
  rfl

theorem h0_dst : (StableHlo.after (hostOps0 (F := F)) U (Proc.devRef .tc main_v3) : IVec S1600000 32)
    = dstRow (U (Proc.devRef .tc main_arg1)) := by
  after_results
  rfl

theorem h0_batch : (StableHlo.after (hostOps0 (F := F)) U (Proc.devRef .tc main_v4) : IVec S100000x1 32)
    = shapeCast S100000x1 (U (Proc.devRef .tc main_arg2)) shapeCasts_S100000_S100000x1 := by
  after_results
  rfl

theorem h3_b1 : (StableHlo.after (hostOps3 (F := F)) U (Proc.devRef .tc main_v89) : FVec F S1x128 .f32)
    = shapeCast S1x128 (U (Proc.devRef .tc main_arg12)) shapeCasts_S128_S1x128 := by
  after_results
  rfl

theorem h3_b2 : (StableHlo.after (hostOps3 (F := F)) U (Proc.devRef .tc main_v90) : FVec F S1x128 .f32)
    = shapeCast S1x128 (U (Proc.devRef .tc main_arg14)) shapeCasts_S128_S1x128 := by
  after_results
  rfl

end Cert.KernelIdeal.Val
-- ==== Proof.KIV.PoolScatter.lean ====
import proofs.«410344_j57440892617235_1_alg».proof.Proof.Gen.ReferenceIdeal
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx
open Cert.ReferenceIdeal Cert.ReferenceIdeal.Gen

abbrev SD := scatter_S1024x128_S100000x1_S100000x128_1_0_0_1

theorem sd_siIdx (a : Fin 100000) (b : Fin 128) (c : Fin SD.scatterDimsToOperandDims.length) :
    SD.siIdx (ix2 a b) c = ix2 a 0 := by
  funext x
  apply Fin.ext
  match x with
  | ⟨0, _⟩ =>
    unfold ScatterDims.siIdx
    rw [dif_neg (by show ¬ (0 : ℕ) = 1; decide)]
    unfold ScatterDims.siCoord
    rfl
  | ⟨1, _⟩ =>
    unfold ScatterDims.siIdx
    rw [dif_pos (by show (1 : ℕ) = 1; rfl)]
    have : c.val < 1 := c.isLt
    show c.val = 0
    omega

theorem sd_start0 (bt : IVec S100000x1 32) (a : Fin 100000) (b : Fin 128) :
    SD.start (ix2 a b) bt 0 = (bt (ix2 a 0)).toInt := by
  unfold ScatterDims.start
  rw [dif_pos (by decide), sd_siIdx]

theorem sd_start1 (bt : IVec S100000x1 32) (a : Fin 100000) (b : Fin 128) :
    SD.start (ix2 a b) bt 1 = 0 := by
  unfold ScatterDims.start
  rw [dif_neg (by decide)]

theorem sd_window0 (a : Fin 100000) (b : Fin 128) : SD.window (ix2 a b) 0 = 0 := by
  unfold ScatterDims.window
  rw [dif_neg (by decide)]

theorem sd_window1 (a : Fin 100000) (b : Fin 128) : SD.window (ix2 a b) 1 = b.val := by
  unfold ScatterDims.window
  rw [dif_pos (by decide)]
  rfl

theorem sd_result_iff (bt : IVec S100000x1 32) (a : Fin 100000) (b : Fin 128) (g : Fin 1024) (d : Fin 128) :
    SD.resultIdx? (ix2 a b) bt = some (ix2 g d) ↔ (bt (ix2 a 0)).toInt = (g.val : ℤ) ∧ b = d := by
  have hg := g.isLt
  have hb := b.isLt
  unfold ScatterDims.resultIdx?
  split
  · rename_i h
    rw [Option.some.injEq]
    have h0 : 0 ≤ (bt (ix2 a 0)).toInt + ((0 : ℕ) : ℤ) ∧ (bt (ix2 a 0)).toInt + ((0 : ℕ) : ℤ) < (1024 : ℕ) := by
      have := h 0; rw [sd_start0, sd_window0] at this; exact this
    constructor
    · intro e
      have e0 : (SD.start (ix2 a b) bt 0 + (SD.window (ix2 a b) 0 : ℤ)).toNat = g.val := congrArg (fun f => (f 0).val) e
      have e1 : (SD.start (ix2 a b) bt 1 + (SD.window (ix2 a b) 1 : ℤ)).toNat = d.val := congrArg (fun f => (f 1).val) e
      rw [sd_start0, sd_window0] at e0
      rw [sd_start1, sd_window1] at e1
      exact ⟨by omega, Fin.ext (by omega)⟩
    · rintro ⟨e0, rfl⟩
      funext x
      apply Fin.ext
      match x with
      | ⟨0, _⟩ =>
        show (SD.start (ix2 a b) bt 0 + (SD.window (ix2 a b) 0 : ℤ)).toNat = g.val
        rw [sd_start0, sd_window0]; omega
      | ⟨1, _⟩ =>
        show (SD.start (ix2 a b) bt 1 + (SD.window (ix2 a b) 1 : ℤ)).toNat = b.val
        rw [sd_start1, sd_window1]; omega
  · rename_i h
    constructor
    · intro e; cases e
    · rintro ⟨e0, rfl⟩
      exfalso
      apply h
      intro x
      match x with
      | ⟨0, _⟩ =>
        show 0 ≤ SD.start (ix2 a b) bt 0 + (SD.window (ix2 a b) 0 : ℤ) ∧ SD.start (ix2 a b) bt 0 + (SD.window (ix2 a b) 0 : ℤ) < (1024 : ℕ)
        rw [sd_start0, sd_window0]; omega
      | ⟨1, _⟩ =>
        show 0 ≤ SD.start (ix2 a b) bt 1 + (SD.window (ix2 a b) 1 : ℤ) ∧ SD.start (ix2 a b) bt 1 + (SD.window (ix2 a b) 1 : ℤ) < (128 : ℕ)
        rw [sd_start1, sd_window1]; omega

theorem scatter_pool_apply (bt : IVec S100000x1 32) (X : FVec Ideal S100000x128 .f32) (g : Fin 1024) (d : Fin 128) :
    Ideal.hostScatterAdd SD (fun _ => (0 : EReal)) bt X (ix2 g d)
      = ∑ i : Fin 100000, if (bt (ix2 i 0)).toInt = (g.val : ℤ) then X (ix2 i d) else 0 := by
  unfold Ideal.hostScatterAdd
  rw [zero_add, Finset.sum_filter, sum_idx2]
  refine Finset.sum_congr rfl fun i _ => ?_
  simp only [sd_result_iff]
  by_cases h : (bt (ix2 i 0)).toInt = (g.val : ℤ)
  · simp only [h, true_and]
    rw [Finset.sum_ite_eq' Finset.univ d, if_pos (Finset.mem_univ d), if_pos True.intro]
  · simp only [h, false_and, if_false, Finset.sum_const_zero]

end Cert.KernelIdeal.Val
end
-- ==== Proof.KIV.PoolAccPay.lean ====
import proofs.«410344_j57440892617235_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx
open Cert.KernelIdeal Cert.KernelIdeal.Gen

theorem dp_lhs_1 (i : S1024x128.Idx) (q : dot_S1000x1024_S1000x128_S1024x128_0_0_1_1_n_n.contr.Idx) :
    (dot_S1000x1024_S1000x128_S1024x128_0_0_1_1_n_n.lhsIdx i q 1).val = (i 0).val := by
  unfold DotDims.lhsIdx
  rw [dif_neg (show ¬(1 : Fin S1000x1024.rank) ∈ dot_S1000x1024_S1000x128_S1024x128_0_0_1_1_n_n.lhsBatch by decide), dif_pos (show (1 : Fin S1000x1024.rank) ∈ dot_S1000x1024_S1000x128_S1024x128_0_0_1_1_n_n.lhsNonContracting by decide)]
  rfl
theorem dp_rhs_1 (i : S1024x128.Idx) (q : dot_S1000x1024_S1000x128_S1024x128_0_0_1_1_n_n.contr.Idx) :
    (dot_S1000x1024_S1000x128_S1024x128_0_0_1_1_n_n.rhsIdx i q 1).val = (i 1).val := by
  unfold DotDims.rhsIdx
  rw [dif_neg (show ¬(1 : Fin S1000x128.rank) ∈ dot_S1000x1024_S1000x128_S1024x128_0_0_1_1_n_n.rhsBatch by decide), dif_pos (show (1 : Fin S1000x128.rank) ∈ dot_S1000x1024_S1000x128_S1024x128_0_0_1_1_n_n.rhsNonContracting by decide)]
  rfl

theorem onehot_word (u v : BitVec 32) :
    FloatOps.sitofp (F := Ideal) .f32 ((IntOp.cmpi .eq u v).setWidth 32) = if u = v then (1 : EReal) else 0 := by
  show (((((IntOp.cmpi .eq u v).setWidth 32).toInt : ℤ) : ℝ) : EReal) = _
  by_cases h : u = v
  · have e : IntOp.cmpi .eq u v = 1#1 := by subst h; simp [IntOp.cmpi]
    have e2 : ((1#1 : BitVec 1).setWidth 32).toInt = 1 := by decide
    rw [e, if_pos h, e2]; simp
  · have hb : (u == v) = false := beq_eq_false_iff_ne.mpr h
    have e : IntOp.cmpi .eq u v = 0#1 := by show BitVec.ofBool (u == v) = 0#1; rw [hb]; rfl
    have e2 : ((0#1 : BitVec 1).setWidth 32).toInt = 0 := by decide
    rw [e, if_neg h, e2]; simp

abbrev DP := dot_S1000x1024_S1000x128_S1024x128_0_0_1_1_n_n

theorem k3_pay2_apply (x : Vec Ideal S1000x128 .f32) (b : Vec Ideal S1000x1 .i32) (a : Vec Ideal S1024x128 .f32) (g : Fin 1024) (d : Fin 128) :
    k3_pay2 (F := Ideal) x b a (ix2 g d)
      = a (ix2 g d) + ∑ r : Fin 1000, (if b (ix2 r 0) = BitVec.ofNat 32 g.val then (1 : EReal) else 0) * x (ix2 r d) := by
  unfold k3_pay2
  dsimp only
  rw [shapeCast_self]
  refine (addf_apply _ _ _).trans ?_
  refine congrArg (a (ix2 g d) + ·) ?_
  refine (Ideal.matmul_constant_zero_apply _ none _ _ (ix2 g d)).trans ?_
  rw [← Equiv.sum_comp (contrEquiv1 DP 1000 rfl rfl).symm]
  refine Finset.sum_congr rfl fun r _ => ?_
  have hk := contrEquiv1_symm_val DP 1000 rfl rfl r
  have el : DP.lhsIdx (ix2 g d) ((contrEquiv1 DP 1000 rfl rfl).symm r) = ix2 r g := funext fun a => Fin.ext (by
    match a with
    | ⟨0, _⟩ => exact (DP.lhsIdx_val_of_single rfl _ _).trans hk
    | ⟨1, _⟩ => exact dp_lhs_1 _ _)
  have er : DP.rhsIdx (ix2 g d) ((contrEquiv1 DP 1000 rfl rfl).symm r) = ix2 r d := funext fun a => Fin.ext (by
    match a with
    | ⟨0, _⟩ => exact (DP.rhsIdx_val_of_single rfl _ _).trans hk
    | ⟨1, _⟩ => exact dp_rhs_1 _ _)
  rw [el, er, shapeCast_self, shapeCast_self]
  refine congrArg (· * x (ix2 r d)) ?_
  show FloatOps.sitofp (F := Ideal) .f32 ((IntOp.cmpi .eq (broadcastTo S1000x1024 b broadcasts_S1000x1_S1000x1024 (ix2 r g)) (iota Kind.tc S1000x1024 32 [1] iota_S1000x1024_d1_w32 (ix2 r g))).setWidth 32) = _
  rw [onehot_word, iota_single_apply,
    broadcastTo_apply b broadcasts_S1000x1_S1000x1024 (ix2 r g) (ix2 r 0) (fun a => by
      match a with
      | ⟨0, _⟩ => rfl
      | ⟨1, _⟩ => rfl)]

theorem k3_pay1_apply (j : S1024x128.Idx) : k3_pay1 (F := Ideal) j = 0 := by
  unfold k3_pay1
  rw [shapeCast_self]
  exact Ideal.ofBits_zero_f32

end Cert.KernelIdeal.Val
end
-- ==== Proof.KIV.PoolAcc.lean ====
import proofs.«410344_j57440892617235_1_alg».proof.Proof.KIV.PoolAccPay
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx
open Cert.KernelIdeal Cert.KernelIdeal.Gen

def poolTerm (X : FVec Ideal S100000x128 .f32) (B : IVec S100000x1 32) (g : Fin 1024) (d : Fin 128) (i : ℕ) : EReal :=
  if h : i < 100000 then (if B (ix2 ⟨i, h⟩ 0) = BitVec.ofNat 32 g.val then (1 : EReal) else 0) * X (ix2 ⟨i, h⟩ d) else 0

theorem pool_acc_prefix (X : FVec Ideal S100000x128 .f32) (B : IVec S100000x1 32)
    (xb : ℕ → FVec Ideal S1000x128 .f32) (bb : ℕ → IVec S1000x1 32) (acc : ℕ → FVec Ideal S1024x128 .f32)
    (hx : ∀ n (r : Fin 1000) (d : Fin 128) (h : 1000 * n + r.val < 100000), xb n (ix2 r d) = X (ix2 ⟨1000 * n + r.val, h⟩ d))
    (hb : ∀ n (r : Fin 1000) (h : 1000 * n + r.val < 100000), bb n (ix2 r 0) = B (ix2 ⟨1000 * n + r.val, h⟩ 0))
    (h0 : acc 0 = k3_pay1 (F := Ideal))
    (hs : ∀ n, n < 100 → acc (n + 1) = k3_pay2 (F := Ideal) (xb n) (bb n) (acc n))
    (g : Fin 1024) (d : Fin 128) :
    ∀ n, n ≤ 100 → acc n (ix2 g d) = ∑ i ∈ Finset.range (1000 * n), poolTerm X B g d i := by
  intro n
  induction n with
  | zero => intro _; rw [h0, k3_pay1_apply]; simp
  | succ n ih =>
    intro hn
    have hn' : n < 100 := hn
    rw [hs n hn', k3_pay2_apply, ih (Nat.le_of_lt hn'), Nat.mul_succ, Finset.sum_range_add]
    refine congrArg (_ + ·) ?_
    rw [← Fin.sum_univ_eq_sum_range (fun r => poolTerm X B g d (1000 * n + r)) 1000]
    refine Finset.sum_congr rfl fun r _ => ?_
    have hr : 1000 * n + r.val < 100000 := by have := r.isLt; omega
    unfold poolTerm
    rw [dif_pos hr, hx n r d hr, hb n r hr]

theorem pool_acc_total (X : FVec Ideal S100000x128 .f32) (B : IVec S100000x1 32)
    (xb : ℕ → FVec Ideal S1000x128 .f32) (bb : ℕ → IVec S1000x1 32) (acc : ℕ → FVec Ideal S1024x128 .f32)
    (hx : ∀ n (r : Fin 1000) (d : Fin 128) (h : 1000 * n + r.val < 100000), xb n (ix2 r d) = X (ix2 ⟨1000 * n + r.val, h⟩ d))
    (hb : ∀ n (r : Fin 1000) (h : 1000 * n + r.val < 100000), bb n (ix2 r 0) = B (ix2 ⟨1000 * n + r.val, h⟩ 0))
    (h0 : acc 0 = k3_pay1 (F := Ideal))
    (hs : ∀ n, n < 100 → acc (n + 1) = k3_pay2 (F := Ideal) (xb n) (bb n) (acc n))
    (g : Fin 1024) (d : Fin 128) :
    acc 100 (ix2 g d) = ∑ i : Fin 100000, (if B (ix2 i 0) = BitVec.ofNat 32 g.val then (1 : EReal) else 0) * X (ix2 i d) := by
  rw [pool_acc_prefix X B xb bb acc hx hb h0 hs g d 100 (Nat.le_refl _), show 1000 * 100 = 100000 from rfl,
    ← Fin.sum_univ_eq_sum_range (poolTerm X B g d) 100000]
  refine Finset.sum_congr rfl fun i _ => ?_
  unfold poolTerm
  rw [dif_pos i.isLt]

end Cert.KernelIdeal.Val
end
-- ==== Proof.KIV.PoolHead.lean ====
import proofs.«410344_j57440892617235_1_alg».proof.Proof.Gen.KernelIdeal.Skeleton
import proofs.«410344_j57440892617235_1_alg».proof.Proof.RefTerms
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx

theorem head_mm (u : FVec Ideal Cert.KernelIdeal.S1024x128 .f32) (w : FVec Ideal Cert.KernelIdeal.S128x128 .f32) :
    matmul Cert.KernelIdeal.dot_S1024x128_S128x128_S1024x128_1_0_0_1_n_n none u w (constant Cert.KernelIdeal.S1024x128 .f32 0x00000000#32)
      = Host.dotGeneral Cert.ReferenceIdeal.dot_S1024x128_S128x128_S1024x128_1_0_0_1_n_n none u w := by
  funext j
  refine (Ideal.matmul_constant_zero_apply _ none u w j).trans ?_
  exact (Ideal.dotGeneral_apply Cert.ReferenceIdeal.dot_S1024x128_S128x128_S1024x128_1_0_0_1_n_n none .single u w j).symm

theorem head_zero : broadcast Cert.KernelIdeal.S1024x128 (Scalar.ofBits (F := Ideal) .f32 0x00000000#32) = Cert.RefTerms.zerosG (F := Ideal) := by
  funext j
  rfl

theorem head_bias (v : FVec Ideal Cert.KernelIdeal.S1x128 .f32) (hb : FVec Ideal Cert.ReferenceIdeal.S128 .f32)
    (h : ∀ k : Fin 128, v (ix2 0 k) = hb (ix1 k)) :
    broadcastTo Cert.KernelIdeal.S1024x128 (shapeCast Cert.KernelIdeal.S1x128 v Cert.KernelIdeal.Facts₀.shapeCasts_S1x128_S1x128) Cert.KernelIdeal.Facts₀.broadcasts_S1x128_S1024x128
      = Cert.RefTerms.bcG (F := Ideal) hb := by
  funext j
  obtain ⟨g, d, rfl⟩ : ∃ (g : Fin 1024) (d : Fin 128), j = ix2 g d := ⟨j 0, j 1, eq_ix2 j⟩
  rw [shapeCast_self]
  refine (broadcastTo_apply v _ (ix2 g d) (ix2 0 d) (fun a => by
      match a with
      | ⟨0, _⟩ => rfl
      | ⟨1, _⟩ => rfl)).trans ?_
  unfold Cert.RefTerms.bcG
  refine ((h d).trans ?_)
  refine ((broadcastInDim_apply _ Cert.ReferenceIdeal.Facts₀.bcast_S1x128_S1024x128_0_1 _ (ix2 g d) (ix2 0 d) (fun a => by
      match a with
      | ⟨0, _⟩ => rfl
      | ⟨1, _⟩ => rfl)).trans ?_).symm
  exact broadcastInDim_apply _ Cert.ReferenceIdeal.Facts₀.bcast_S128_S1x128_1 hb (ix2 0 d) (ix1 d) (fun a => by
      match a with
      | ⟨0, _⟩ => rfl)

open Cert.KernelIdeal Cert.KernelIdeal.Gen in
theorem k3_pay3_eq (a : FVec Ideal S1024x128 .f32) (w1 : FVec Ideal S128x128 .f32) (b1 : FVec Ideal S1x128 .f32)
    (w2 : FVec Ideal S128x128 .f32) (b2 : FVec Ideal S1x128 .f32) (hb1 hb2 : FVec Ideal Cert.ReferenceIdeal.S128 .f32)
    (h1 : ∀ k : Fin 128, b1 (ix2 0 k) = hb1 (ix1 k)) (h2 : ∀ k : Fin 128, b2 (ix2 0 k) = hb2 (ix1 k)) :
    k3_pay3 (F := Ideal) a w1 b1 w2 b2
      = addf (Host.dotGeneral Cert.ReferenceIdeal.dot_S1024x128_S128x128_S1024x128_1_0_0_1_n_n none
          (maximumf (addf (Host.dotGeneral Cert.ReferenceIdeal.dot_S1024x128_S128x128_S1024x128_1_0_0_1_n_n none a w1)
            (Cert.RefTerms.bcG (F := Ideal) hb1)) (Cert.RefTerms.zerosG (F := Ideal))) w2) (Cert.RefTerms.bcG (F := Ideal) hb2) := by
  unfold k3_pay3
  dsimp only
  rw [head_mm, head_mm, head_zero, head_bias b1 hb1 h1, head_bias b2 hb2 h2]

end Cert.KernelIdeal.Val
end
-- ==== Proof.KIV.MlpSpec.lean ====
import Idealize.ShloMosaic.Lib.ValueIdx
import Idealize.ShloMosaic.PureOps.Ideal.Laws

noncomputable section

open scoped BigOperators

namespace Cert.KernelIdeal.Val

open Idealize.ShloMosaic Idealize.ShloMosaic.ValueIdx

abbrev epsWord : BitVec 32 := 0x3727C5AC#32

/-- Hidden unit `k` of a row `h`: `max(((Σ_j h j · w1[j,k] + b1[k]) − mu[k]) · rsqrt(va[k] + eps) · g[k] + be[k], 0)`. -/
def hidAt (h : Fin 128 → EReal) (w1 : (⟨2, ![128, 128]⟩ : Shape).Idx → EReal)
    (b1 g be mu va : (⟨2, ![1, 128]⟩ : Shape).Idx → EReal) (k : Fin 128) : EReal :=
  max (((((∑ j : Fin 128, h j * w1 (ix2 j k)) + b1 (ix2 (0 : Fin 1) k)) - mu (ix2 (0 : Fin 1) k))
        * Ideal.rsqrt (va (ix2 (0 : Fin 1) k) + Ideal.ofBits .f32 epsWord)) * g (ix2 (0 : Fin 1) k)
      + be (ix2 (0 : Fin 1) k)) (Ideal.ofBits .f32 0x00000000#32)

/-- Entry `q` of the network of a row `h`: `max(Σ_k hidAt k · w2[k,q] + b2[q], 0)`. It depends on the row only. -/
def mlpAt (h : Fin 128 → EReal) (w1 : (⟨2, ![128, 128]⟩ : Shape).Idx → EReal)
    (b1 g be mu va : (⟨2, ![1, 128]⟩ : Shape).Idx → EReal) (w2 : (⟨2, ![128, 128]⟩ : Shape).Idx → EReal)
    (b2 : (⟨2, ![1, 128]⟩ : Shape).Idx → EReal) (q : Fin 128) : EReal :=
  max ((∑ k : Fin 128, hidAt h w1 b1 g be mu va k * w2 (ix2 k q)) + b2 (ix2 (0 : Fin 1) q))
    (Ideal.ofBits .f32 0x00000000#32)

/-- The network of every row of a `[100000, 128]` array. -/
def mlpArr (x : (⟨2, ![100000, 128]⟩ : Shape).Idx → EReal) (w1 : (⟨2, ![128, 128]⟩ : Shape).Idx → EReal)
    (b1 g be mu va : (⟨2, ![1, 128]⟩ : Shape).Idx → EReal) (w2 : (⟨2, ![128, 128]⟩ : Shape).Idx → EReal)
    (b2 : (⟨2, ![1, 128]⟩ : Shape).Idx → EReal) : (⟨2, ![100000, 128]⟩ : Shape).Idx → EReal :=
  fun i => mlpAt (fun j => x (ix2 (i 0) j)) w1 b1 g be mu va w2 b2 (i 1)

theorem mlpArr_apply (x : (⟨2, ![100000, 128]⟩ : Shape).Idx → EReal) (w1 : (⟨2, ![128, 128]⟩ : Shape).Idx → EReal)
    (b1 g be mu va : (⟨2, ![1, 128]⟩ : Shape).Idx → EReal) (w2 : (⟨2, ![128, 128]⟩ : Shape).Idx → EReal)
    (b2 : (⟨2, ![1, 128]⟩ : Shape).Idx → EReal) (r : Fin 100000) (q : Fin 128) :
    mlpArr x w1 b1 g be mu va w2 b2 (ix2 r q) = mlpAt (fun j => x (ix2 r j)) w1 b1 g be mu va w2 b2 q := rfl

end Cert.KernelIdeal.Val

end
-- ==== Proof.KIV.MlpPay0.lean ====
import proofs.«410344_j57440892617235_1_alg».proof.Proof.Gen.KernelIdeal.Skeleton
import proofs.«410344_j57440892617235_1_alg».proof.Proof.KIV.MlpSpec
import Idealize.ShloMosaic.Lib.Pipeline.Value
import Idealize.ShloMosaic.Lib.ValueLayout
import Idealize.ShloMosaic.Lib.StackMember

noncomputable section

open scoped BigOperators

namespace Cert.KernelIdeal.Val

open Idealize.ShloMosaic Idealize.ShloMosaic.ValueIdx
open Cert.KernelIdeal Cert.KernelIdeal.Gen

/-- A block product into the zero splat is the plain product of a 5000 x 128 by a 128 x 128 matrix: a sum over the shared axis. -/
theorem mm_apply (a : FVec Ideal S5000x128 .f32) (b : FVec Ideal S128x128 .f32) (p : Fin 5000) (q : Fin 128) :
    matmul dot_S5000x128_S128x128_S5000x128_1_0_0_1_n_n none a b (constant S5000x128 .f32 0x00000000#32) (ix2 p q)
      = ∑ k : Fin 128, a (ix2 p k) * b (ix2 k q) :=
  (Ideal.matmul_constant_zero_apply _ none a b _).trans <| (Ideal.dotGeneral_apply _ none _ a b _).symm.trans <|
    StackMember.dotGeneral_plain_apply none a b p q

/-- The three regions' bodies are one text, so this is the payload of each: at `(p, q)` it is the network of row `p` of the row block. -/
theorem pay0_apply (x0 : Vec Ideal S5000x128 .f32) (x1 : Vec Ideal S128x128 .f32) (x2 x3 x4 x5 x6 : Vec Ideal S1x128 .f32)
    (x7 : Vec Ideal S128x128 .f32) (x8 : Vec Ideal S1x128 .f32) (p : Fin 5000) (q : Fin 128) :
    k0_pay1 (k0_pay2 x0 x1 x2 x5 x6 x3 x4 x7 x8) (ix2 p q)
      = mlpAt (fun j => x0 (ix2 p j)) x1 x2 x3 x4 x5 x6 x7 x8 q := by
  unfold k0_pay1 k0_pay2 mlpAt hidAt
  simp only [shapeCast_self, maximumf_apply, addf_apply, mm_apply, broadcastTo_1b_ab_apply, mulf_apply, subf_apply, broadcast_apply]
  rfl

end Cert.KernelIdeal.Val

end
-- ==== Proof.KIV.MlpValue0.lean ====
import proofs.«410344_j57440892617235_1_alg».proof.Proof.KIF.Mlp0
import proofs.«410344_j57440892617235_1_alg».proof.Proof.KIV.MlpPay0
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem hz0 : (![0, 0] : Fin 2 → Nat) = fun _ => 0 := funext fun a => by fin_cases a <;> rfl

/-- A block whose index is zero on every axis is read off its array from the origin. -/
theorem read_zero {G : Pipeline.Grid} (w : Pipeline.Window sig G) (t : Fin G.N) (h : w.index t = 0) {α : Type} (f : w.shape.Idx → α)
    (ι : (w.xblock (G.coords t)).Idx → w.shape.Idx) (hι : ∀ y a, (ι y a : ℕ) = y a) :
    (fun y => f ((w.rect t).emb y)) = fun y => f (ι y) :=
  funext fun y => congrArg f (funext fun a => Fin.ext ((w.rect_emb_val_of_index_zero t a (congrFun h a) y).trans (hι y a).symm))

/-- Where the eight parameter blocks are the arrays `A1 … A8` and row `p` of the row block is row `r` of `A0`, the block
    stored (the same for the three regions, whose bodies are one text) has at `(p, q)` the network's entry `(r, q)`. -/
theorem out_blk {A0 : Vec Ideal S100000x128 .f32} {x0 : Vec Ideal S5000x128 .f32} {x1 A1 : Vec Ideal S128x128 .f32}
    {x2 A2 x3 A3 x4 A4 x5 A5 x6 A6 : Vec Ideal S1x128 .f32} {x7 A7 : Vec Ideal S128x128 .f32} {x8 A8 : Vec Ideal S1x128 .f32}
    (h1 : x1 = A1) (h2 : x2 = A2) (h3 : x3 = A3) (h4 : x4 = A4) (h5 : x5 = A5) (h6 : x6 = A6) (h7 : x7 = A7) (h8 : x8 = A8)
    (p : Fin 5000) (q : Fin 128) (r : Fin 100000) (h : ∀ j, x0 (ix2 p j) = A0 (ix2 r j)) :
    out0_9 x0 x1 x2 x3 x4 x5 x6 x7 x8 (ix2 p q) = mlpArr A0 A1 A2 A3 A4 A5 A6 A7 A8 (ix2 r q) := by
  subst h1 h2 h3 h4 h5 h6 h7 h8
  unfold out0_9
  rw [View.canon_unit_zero hz0]
  simp only [View.ld_unit_zero (S := S5000x128) hz0, View.ld_unit_zero (S := S128x128) hz0, View.ld_unit_zero (S := S1x128) hz0]
  rw [pay0_apply, mlpArr_apply, funext h]

theorem idx0 : ∀ t : Fin grid0.N, win0_0.index t = ![t.val, 0] ∧ win0_9.index t = ![t.val, 0] ∧ win0_1.index t = 0 ∧ win0_2.index t = 0
    ∧ win0_3.index t = 0 ∧ win0_4.index t = 0 ∧ win0_5.index t = 0 ∧ win0_6.index t = 0 ∧ win0_7.index t = 0 ∧ win0_8.index t = 0 := by
  decide +kernel

/-- Each of region 0's eight parameter blocks is its whole array. -/
theorem blk0 (c : Dev nD) (t : Fin cfg0.N) : iblk0 V c 1 t = V c main_v11 ∧ iblk0 V c 2 t = V c main_v26 ∧ iblk0 V c 3 t = V c main_v27
    ∧ iblk0 V c 4 t = V c main_v28 ∧ iblk0 V c 5 t = V c main_v29 ∧ iblk0 V c 6 t = V c main_v30 ∧ iblk0 V c 7 t = V c main_v23
    ∧ iblk0 V c 8 t = V c main_v31 := by
  obtain ⟨-, -, e1, e2, e3, e4, e5, e6, e7, e8⟩ := idx0 t
  exact ⟨read_zero win0_1 t e1 (V c main_v11) id fun _ _ => rfl, read_zero win0_2 t e2 (V c main_v26) id fun _ _ => rfl,
    read_zero win0_3 t e3 (V c main_v27) id fun _ _ => rfl, read_zero win0_4 t e4 (V c main_v28) id fun _ _ => rfl,
    read_zero win0_5 t e5 (V c main_v29) id fun _ _ => rfl, read_zero win0_6 t e6 (V c main_v30) id fun _ _ => rfl,
    read_zero win0_7 t e7 (V c main_v23) id fun _ _ => rfl, read_zero win0_8 t e8 (V c main_v31) id fun _ _ => rfl⟩

/-- Region 0's twenty blocks of 5000 rows tile its output array, and block `t` is stored from rows `5000·t + p` of the row array
    and the eight parameter arrays whole: the output array ends as the network of the nine arrays. -/
theorem final0 (c : Dev nD) : (dat0 V c).arrAt 9 cfg0.N
    = mlpArr (V c main_v9) (V c main_v11) (V c main_v26) (V c main_v27) (V c main_v28) (V c main_v29) (V c main_v30) (V c main_v23) (V c main_v31) := by
  have key (t : Fin cfg0.N) (p : Fin 5000) (q : Fin 128) (h : t.val * 5000 + p.val < 100000) :
      ((cfg0.win 9).blk t).view.emb (ix2 p q) = ix2 ⟨t.val * 5000 + p.val, h⟩ q :=
    Shape.idx_ext₂ ((win0_9.rect_emb_val t _ (0 : Fin 2)).trans (by rw [(idx0 t).2.1]; rfl)) ((win0_9.rect_emb_val t _ (1 : Fin 2)).trans (by rw [(idx0 t).2.1]; exact Nat.zero_add _))
  refine (dat0 V c).arrAt_eq_of_cover 9 _ (fun t _ => ?_) fun i => ?_
  · obtain ⟨h1, h2, h3, h4, h5, h6, h7, h8⟩ := blk0 V c t
    have e0 := (idx0 t).1
    have hN : t.val < 20 := lt_of_lt_of_eq t.isLt N_0
    show (cfg0.win 9).cut (grid0.coords t) ((dat0 V c).after 9 t) = _
    rw [after0_9]
    funext y
    obtain ⟨p, q, rfl⟩ : ∃ (p : Fin 5000) (q : Fin 128), y = ix2 p q := ⟨y 0, y 1, eq_ix2 y⟩
    rw [View.read_apply, key t p q (by omega)]
    exact out_blk h1 h2 h3 h4 h5 h6 h7 h8 p q _ fun j =>
      congrArg (V c main_v9) (Shape.idx_ext₂ ((win0_0.rect_emb_val t _ (0 : Fin 2)).trans (by rw [e0]; rfl)) ((win0_0.rect_emb_val t _ (1 : Fin 2)).trans (by rw [e0]; exact Nat.zero_add _)))
  · have h0 : (i 0).val < 100000 := idx2_lt0 i
    obtain ⟨t, ht⟩ : ∃ t : Fin cfg0.N, t.val = (i 0).val / 5000 := ⟨⟨(i 0).val / 5000, by show _ < grid0.N; rw [N_0]; omega⟩, rfl⟩
    have e : ((cfg0.win 9).blk t).view.emb (ix2 ⟨(i 0).val % 5000, Nat.mod_lt _ (by decide)⟩ (i 1)) = i :=
      (key t _ _ (by show t.val * 5000 + (i 0).val % 5000 < 100000; omega)).trans
        (Shape.idx_ext₂ (by show t.val * 5000 + (i 0).val % 5000 = (i 0).val; omega) rfl)
    exact ⟨t, flush0_9 t, e ▸ View.emb_mem_set _ _⟩

end Cert.KernelIdeal.Val

end
-- ==== Proof.KIV.PoolValue.lean ====
import proofs.«410344_j57440892617235_1_alg».proof.Proof.KIF.Pool
import proofs.«410344_j57440892617235_1_alg».proof.Proof.KIV.PoolScatter
import proofs.«410344_j57440892617235_1_alg».proof.Proof.KIV.PoolAcc
import proofs.«410344_j57440892617235_1_alg».proof.Proof.KIV.PoolHead
import proofs.«410344_j57440892617235_1_alg».proof.Proof.KIV.MlpValue0
import Idealize.ShloMosaic.Lib.ValueIdx
import Idealize.ShloMosaic.Lib.WordArith
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

abbrev xarr (c : Dev nD) : FVec Ideal S100000x128 .f32 := V c (Pipeline.arrRef spec3 0)
abbrev barr (c : Dev nD) : IVec S100000x1 32 := V c (Pipeline.arrRef spec3 1)
abbrev xblk (c : Dev nD) (t : Fin cfg3.N) : FVec Ideal S1000x128 .f32 := iblk3 V c 0 t
abbrev bblk (c : Dev nD) (t : Fin cfg3.N) : IVec S1000x1 32 := iblk3 V c 1 t

theorem idx3 : ∀ t : Fin grid3.N, win3_0.index t = ![t.val, 0] ∧ win3_1.index t = ![t.val, 0] ∧ win3_2.index t = 0 ∧ win3_3.index t = 0
    ∧ win3_4.index t = 0 ∧ win3_5.index t = 0 ∧ win3_6.index t = 0 := by
  decide +kernel

/-- Block `t` of the rows is rows `1000·t …` of the row array, -/
theorem xblk_apply (c : Dev nD) (t : Fin cfg3.N) (r : Fin 1000) (d : Fin 128) (h : 1000 * t.val + r.val < 100000) :
    xblk V c t (ix2 r d) = xarr V c (ix2 ⟨1000 * t.val + r.val, h⟩ d) :=
  congrArg (V c (Pipeline.arrRef spec3 0)) (Shape.idx_ext₂
    ((win3_0.rect_emb_val t _ (0 : Fin 2)).trans (by rw [(idx3 t).1]; show t.val * 1000 + r.val = 1000 * t.val + r.val; omega))
    ((win3_0.rect_emb_val t _ (1 : Fin 2)).trans (by rw [(idx3 t).1]; exact Nat.zero_add _)))

/-- and likewise of the graph ids. -/
theorem bblk_apply (c : Dev nD) (t : Fin cfg3.N) (r : Fin 1000) (h : 1000 * t.val + r.val < 100000) :
    bblk V c t (ix2 r 0) = barr V c (ix2 ⟨1000 * t.val + r.val, h⟩ 0) :=
  congrArg (V c (Pipeline.arrRef spec3 1)) (Shape.idx_ext₂
    ((win3_1.rect_emb_val t _ (0 : Fin 2)).trans (by rw [(idx3 t).2.1]; show t.val * 1000 + r.val = 1000 * t.val + r.val; omega))
    ((win3_1.rect_emb_val t _ (1 : Fin 2)).trans (by rw [(idx3 t).2.1]; rfl)))

/-- Each of the head's four parameter blocks is its whole array. -/
theorem blk3 (c : Dev nD) (t : Fin cfg3.N) : iblk3 V c 2 t = V c (Pipeline.arrRef spec3 2) ∧ iblk3 V c 3 t = V c (Pipeline.arrRef spec3 3)
    ∧ iblk3 V c 4 t = V c (Pipeline.arrRef spec3 4) ∧ iblk3 V c 5 t = V c (Pipeline.arrRef spec3 5) := by
  obtain ⟨-, -, e2, e3, e4, e5, -⟩ := idx3 t
  exact ⟨read_zero win3_2 t e2 (V c (Pipeline.arrRef spec3 2)) id fun _ _ => rfl, read_zero win3_3 t e3 (V c (Pipeline.arrRef spec3 3)) id fun _ _ => rfl,
    read_zero win3_4 t e4 (V c (Pipeline.arrRef spec3 4)) id fun _ _ => rfl, read_zero win3_5 t e5 (V c (Pipeline.arrRef spec3 5)) id fun _ _ => rfl⟩

theorem acc3_start (c : Dev nD) : acc3 V c 0 = k3_pay1 (F := Ideal) := by
  rw [acc3_zero]
  exact View.canon_unit_zero off0_3 inb_S1024x128_S1024x128_0_0 _

theorem acc3_step (c : Dev nD) (t : Fin cfg3.N) :
    acc3 V c (t.val + 1) = k3_pay2 (F := Ideal) (xblk V c t) (bblk V c t) (acc3 V c t.val) := by
  rw [acc3_succ, View.canon_unit_zero off0_3, View.ld_unit_zero (S := S1000x128) off0_3, View.ld_unit_zero (S := S1000x1) off0_3,
    View.ld_unit_zero (S := S1024x128) off0_3]

theorem word_eq_iff (w : BitVec 32) (g : ℕ) (hg : g < 1024) : w = BitVec.ofNat 32 g ↔ w.toInt = (g : ℤ) := by
  have hs : (BitVec.ofNat 32 g).toInt = g := WordArith.toInt_ofNat_small g (by omega)
  exact ⟨fun h => h ▸ hs, fun h => BitVec.eq_of_toInt_eq (h.trans hs.symm)⟩

/-- The reference's per-graph sums are the running sum after the last of the hundred blocks: both add, for graph `g`, the rows whose id is `g`. -/
theorem scatter_eq_acc (c : Dev nD) (batch : IVec Cert.ReferenceIdeal.S100000 32)
    (hbt : ∀ i : Fin 100000, barr V c (ix2 i 0) = batch (ix1 i)) :
    Host.scatterAdd SD (Cert.RefTerms.zerosG (F := Ideal))
        (broadcastInDim Cert.ReferenceIdeal.S100000x1 ![0] Cert.ReferenceIdeal.Facts₀.bcast_S100000_S100000x1_0 batch) (xarr V c)
      = acc3 V c 100 := by
  have hN : cfg3.N = 100 := N_3
  funext j
  obtain ⟨g, d, rfl⟩ : ∃ (g : Fin 1024) (d : Fin 128), j = ix2 g d := ⟨j 0, j 1, eq_ix2 j⟩
  have hz : (Cert.RefTerms.zerosG (F := Ideal)) = fun _ => (0 : EReal) := funext fun _ => Ideal.ofBits_zero_f32
  show Ideal.hostScatterAdd SD (Cert.RefTerms.zerosG (F := Ideal)) _ (xarr V c) (ix2 g d) = _
  rw [hz, scatter_pool_apply]
  rw [pool_acc_total (xarr V c) (barr V c)
    (fun n => if h : n < cfg3.N then xblk V c ⟨n, h⟩ else fun _ => 0)
    (fun n => if h : n < cfg3.N then bblk V c ⟨n, h⟩ else fun _ => 0)
    (acc3 V c)
    (fun n r d h => by
      have hn : n < cfg3.N := by have := r.isLt; omega
      show (if h : n < cfg3.N then xblk V c ⟨n, h⟩ else fun _ => 0) (ix2 r d) = _
      rw [dif_pos hn]; exact xblk_apply V c ⟨n, hn⟩ r d h)
    (fun n r h => by
      have hn : n < cfg3.N := by have := r.isLt; omega
      show (if h : n < cfg3.N then bblk V c ⟨n, h⟩ else fun _ => 0) (ix2 r 0) = _
      rw [dif_pos hn]; exact bblk_apply V c ⟨n, hn⟩ r h)
    (acc3_start V c)
    (fun n hn => by
      have hn' : n < cfg3.N := by omega
      show acc3 V c (n + 1) = k3_pay2 (F := Ideal) (if h : n < cfg3.N then xblk V c ⟨n, h⟩ else fun _ => 0) (if h : n < cfg3.N then bblk V c ⟨n, h⟩ else fun _ => 0) (acc3 V c n)
      rw [dif_pos hn', dif_pos hn']; exact acc3_step V c ⟨n, hn'⟩)
    g d]
  refine Finset.sum_congr rfl fun i _ => ?_
  have eb : broadcastInDim Cert.ReferenceIdeal.S100000x1 ![0] Cert.ReferenceIdeal.Facts₀.bcast_S100000_S100000x1_0 batch (ix2 i 0) = barr V c (ix2 i 0) :=
    (broadcastInDim_apply _ Cert.ReferenceIdeal.Facts₀.bcast_S100000_S100000x1_0 batch (ix2 i 0) (ix1 i) (fun a => by
      match a with
      | ⟨0, _⟩ => rfl)).trans (hbt i).symm
  rw [eb]
  by_cases h : barr V c (ix2 i 0) = BitVec.ofNat 32 g.val
  · rw [if_pos h, if_pos ((word_eq_iff _ g.val g.isLt).mp h), one_mul]
  · rw [if_neg h, if_neg (fun h' => h ((word_eq_iff _ g.val g.isLt).mpr h')), zero_mul]

abbrev poolRef (c : Dev nD) (batch : IVec Cert.ReferenceIdeal.S100000 32) (hb1 hb2 : FVec Ideal Cert.ReferenceIdeal.S128 .f32) :
    Buf (Elt Ideal) ((c : Thread nD τ).loc main_v91) :=
  Cert.RefTerms.refPoolHead (F := Ideal) (xarr V c) batch (V c (Pipeline.arrRef spec3 2)) hb1 (V c (Pipeline.arrRef spec3 4)) hb2

/-- The output window's one block sits at the origin of its array. -/
theorem emb3 (t : Fin cfg3.N) (y : S1024x128.Idx) : ((cfg3.win 6).blk t).view.emb y = y :=
  funext fun a => Fin.ext (win3_6.rect_emb_val_of_index_zero t a (congrFun (idx3 t).2.2.2.2.2.2 a) y)

/-- Only the last point writes the output back: the head of the running sum after the hundredth block, which is the reference's
    head of its per-graph sums. -/
theorem flushed_eq3 (c : Dev nD) (batch : IVec Cert.ReferenceIdeal.S100000 32) (hb1 hb2 : FVec Ideal Cert.ReferenceIdeal.S128 .f32)
    (hbt : ∀ i : Fin 100000, barr V c (ix2 i 0) = batch (ix1 i))
    (h1 : ∀ k : Fin 128, (V c (Pipeline.arrRef spec3 3) : FVec Ideal S1x128 .f32) (ix2 0 k) = hb1 (ix1 k))
    (h2 : ∀ k : Fin 128, (V c (Pipeline.arrRef spec3 5) : FVec Ideal S1x128 .f32) (ix2 0 k) = hb2 (ix1 k))
    (t : Fin cfg3.N) (hf : (cfg3.win 6).flush t = true) :
    (dat3 V c).flushed 6 t = ((cfg3.win 6).blk t).view.read (Elt Ideal) (poolRef V c batch hb1 hb2) := by
  have hN : cfg3.N = 100 := N_3
  have h99 : t.val = 99 := by have := (flush3_6 t).mp hf; have := t.isLt; omega
  obtain ⟨e2, e3, e4, e5⟩ := blk3 V c t
  have hout : out3_6 (acc3 V c (t.val + 1)) (iblk3 V c 2 t) (iblk3 V c 3 t) (iblk3 V c 4 t) (iblk3 V c 5 t) = poolRef V c batch hb1 hb2 := by
    unfold out3_6
    rw [View.canon_unit_zero off0_3, View.ld_unit_zero (S := S1024x128) off0_3, View.ld_unit_zero (S := S128x128) off0_3,
      View.ld_unit_zero (S := S1x128) off0_3, View.ld_unit_zero (S := S128x128) off0_3, View.ld_unit_zero (S := S1x128) off0_3,
      e2, e3, e4, e5, h99, k3_pay3_eq (acc3 V c 100) _ _ _ _ hb1 hb2 h1 h2, ← scatter_eq_acc V c batch hbt]
    rfl
  show (cfg3.win 6).cut (grid3.coords t) ((dat3 V c).after 6 t) = _
  rw [after3_6, hout]
  funext y
  rw [View.read_apply, emb3 t y]
  rfl

abbrev t3_last : Fin cfg3.N := ⟨99, by rw [show cfg3.N = 100 from N_3]; decide⟩

theorem pool_value (c : Dev nD) (batch : IVec Cert.ReferenceIdeal.S100000 32) (hb1 hb2 : FVec Ideal Cert.ReferenceIdeal.S128 .f32)
    (hbt : ∀ i : Fin 100000, (V c (Pipeline.arrRef spec3 1) : IVec S100000x1 32) (ix2 i 0) = batch (ix1 i))
    (h1 : ∀ k : Fin 128, (V c (Pipeline.arrRef spec3 3) : FVec Ideal S1x128 .f32) (ix2 0 k) = hb1 (ix1 k))
    (h2 : ∀ k : Fin 128, (V c (Pipeline.arrRef spec3 5) : FVec Ideal S1x128 .f32) (ix2 0 k) = hb2 (ix1 k)) :
    (dat3 V c).arrAt 6 cfg3.N
      = Cert.RefTerms.refPoolHead (F := Ideal) (V c (Pipeline.arrRef spec3 0)) batch (V c (Pipeline.arrRef spec3 2)) hb1 (V c (Pipeline.arrRef spec3 4)) hb2 :=
  (dat3 V c).arrAt_eq_of_cover 6 (poolRef V c batch hb1 hb2) (flushed_eq3 V c batch hb1 hb2 hbt h1 h2) fun i =>
    ⟨t3_last, (flush3_6 t3_last).mpr rfl, by
      have e := ((cfg3.win 6).blk t3_last).view.emb_mem_set i
      rwa [emb3 t3_last i] at e⟩

end Cert.KernelIdeal.Val
end
-- ==== Proof.KIV.MlpRef.lean ====
import proofs.«410344_j57440892617235_1_alg».proof.Proof.RefTerms
import proofs.«410344_j57440892617235_1_alg».proof.Proof.KIV.MlpSpec
import Idealize.ShloMosaic.Lib.Pipeline.Value
import Idealize.ShloMosaic.Lib.ValueLayout
import Idealize.ShloMosaic.Lib.StackMember

noncomputable section

open scoped BigOperators

namespace Cert.KernelIdeal.Val

open Idealize.ShloMosaic Idealize.ShloMosaic.ValueIdx
open Cert.ReferenceIdeal Cert.ReferenceIdeal.Gen

/-- A 128-vector repeated down the rows has at `(r, q)` its entry `q`: two broadcasts, each read at the index it copies from. -/
theorem bc_apply (v : FVec Ideal S128 .f32) (r : Fin 100000) (q : Fin 128) : Cert.RefTerms.bc v (ix2 r q) = v (ix1 q) := by
  unfold Cert.RefTerms.bc
  refine (broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-- The reference's network is `mlpArr` entry by entry: the same operations in the same order, its whole-array products
    plain products and its splats constants (it lists its vectors as bias, mean, variance, scale, shift). -/
theorem refMlp_eq (H : FVec Ideal S100000x128 .f32) (W1 : FVec Ideal S128x128 .f32) (b1 mean var gamma beta : FVec Ideal S128 .f32)
    (W2 : FVec Ideal S128x128 .f32) (b2 : FVec Ideal S128 .f32) (hc : S128.ShapeCasts S1x128) :
    Cert.RefTerms.refMlp (F := Ideal) H W1 b1 mean var gamma beta W2 b2
      = mlpArr H W1 (shapeCast S1x128 b1 hc) (shapeCast S1x128 gamma hc) (shapeCast S1x128 beta hc) (shapeCast S1x128 mean hc)
          (shapeCast S1x128 var hc) W2 (shapeCast S1x128 b2 hc) := by
  funext i
  obtain ⟨r, q, rfl⟩ : ∃ (r : Fin 100000) (q : Fin 128), i = ix2 r q := ⟨i 0, i 1, eq_ix2 i⟩
  have dot (a : FVec Ideal S100000x128 .f32) (b : FVec Ideal S128x128 .f32) (r : Fin 100000) (q : Fin 128) :
      Host.dotGeneral (F := Ideal) dot_S100000x128_S128x128_S100000x128_1_0_0_1_n_n none a b (ix2 r q) = ∑ k : Fin 128, a (ix2 r k) * b (ix2 k q) :=
    StackMember.dotGeneral_plain_apply none a b r q
  have zeros (i : S100000x128.Idx) : Cert.RefTerms.zerosN (F := Ideal) i = Ideal.ofBits .f32 0x00000000#32 :=
    broadcastInDim_apply _ bcast_S_S100000x128 _ i ix0 (fun a => a.elim0)
  have eps (k : Fin 128) : broadcastInDim S128 ![] bcast_S_S128 (constant (F := Ideal) S_ .f32 0x3727C5AC#32) (ix1 k) = Ideal.ofBits .f32 0x3727C5AC#32 :=
    broadcastInDim_apply _ bcast_S_S128 _ (ix1 k) ix0 (fun a => a.elim0)
  have rsq (x : FVec Ideal S128 .f32) (i : S128.Idx) : Host.rsqrt (F := Ideal) x i = Ideal.rsqrt (x i) := rfl
  rw [mlpArr_apply]
  unfold Cert.RefTerms.refMlp mlpAt hidAt
  simp only [maximumf_apply, addf_apply, dot, bc_apply, zeros, mulf_apply, subf_apply, rsq, eps, shapeCast_a_1a_apply]

end Cert.KernelIdeal.Val

end
-- ==== Proof.KIV.MlpValue1.lean ====
import proofs.«410344_j57440892617235_1_alg».proof.Proof.KIF.Mlp1
import proofs.«410344_j57440892617235_1_alg».proof.Proof.KIV.MlpValue0

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem idx1 : ∀ t : Fin grid1.N, win1_0.index t = ![t.val, 0] ∧ win1_9.index t = ![t.val, 0] ∧ win1_1.index t = 0 ∧ win1_2.index t = 0
    ∧ win1_3.index t = 0 ∧ win1_4.index t = 0 ∧ win1_5.index t = 0 ∧ win1_6.index t = 0 ∧ win1_7.index t = 0 ∧ win1_8.index t = 0 := by
  decide +kernel

/-- The three regions' bodies are one text. -/
theorem out1_eq : @out1_9 Ideal _ = @out0_9 Ideal _ := rfl

/-- Each of region 1's eight parameter blocks is its whole array. -/
theorem blk1 (c : Dev nD) (t : Fin cfg1.N) : iblk1 V c 1 t = V c main_v39 ∧ iblk1 V c 2 t = V c main_v54 ∧ iblk1 V c 3 t = V c main_v55
    ∧ iblk1 V c 4 t = V c main_v56 ∧ iblk1 V c 5 t = V c main_v57 ∧ iblk1 V c 6 t = V c main_v58 ∧ iblk1 V c 7 t = V c main_v51
    ∧ iblk1 V c 8 t = V c main_v59 := by
  obtain ⟨-, -, e1, e2, e3, e4, e5, e6, e7, e8⟩ := idx1 t
  exact ⟨read_zero win1_1 t e1 (V c main_v39) id fun _ _ => rfl, read_zero win1_2 t e2 (V c main_v54) id fun _ _ => rfl,
    read_zero win1_3 t e3 (V c main_v55) id fun _ _ => rfl, read_zero win1_4 t e4 (V c main_v56) id fun _ _ => rfl,
    read_zero win1_5 t e5 (V c main_v57) id fun _ _ => rfl, read_zero win1_6 t e6 (V c main_v58) id fun _ _ => rfl,
    read_zero win1_7 t e7 (V c main_v51) id fun _ _ => rfl, read_zero win1_8 t e8 (V c main_v59) id fun _ _ => rfl⟩

/-- Region 1 stores the same block as region 0 through windows of the same index maps over its own ten arrays. -/
theorem final1 (c : Dev nD) : (dat1 V c).arrAt 9 cfg1.N
    = mlpArr (V c main_v37) (V c main_v39) (V c main_v54) (V c main_v55) (V c main_v56) (V c main_v57) (V c main_v58) (V c main_v51) (V c main_v59) := by
  have key (t : Fin cfg1.N) (p : Fin 5000) (q : Fin 128) (h : t.val * 5000 + p.val < 100000) :
      ((cfg1.win 9).blk t).view.emb (ix2 p q) = ix2 ⟨t.val * 5000 + p.val, h⟩ q :=
    Shape.idx_ext₂ ((win1_9.rect_emb_val t _ (0 : Fin 2)).trans (by rw [(idx1 t).2.1]; rfl)) ((win1_9.rect_emb_val t _ (1 : Fin 2)).trans (by rw [(idx1 t).2.1]; exact Nat.zero_add _))
  refine (dat1 V c).arrAt_eq_of_cover 9 _ (fun t _ => ?_) fun i => ?_
  · obtain ⟨h1, h2, h3, h4, h5, h6, h7, h8⟩ := blk1 V c t
    have e0 := (idx1 t).1
    have hN : t.val < 20 := lt_of_lt_of_eq t.isLt N_1
    show (cfg1.win 9).cut (grid1.coords t) ((dat1 V c).after 9 t) = _
    rw [after1_9, out1_eq]
    funext y
    obtain ⟨p, q, rfl⟩ : ∃ (p : Fin 5000) (q : Fin 128), y = ix2 p q := ⟨y 0, y 1, eq_ix2 y⟩
    rw [View.read_apply, key t p q (by omega)]
    exact out_blk h1 h2 h3 h4 h5 h6 h7 h8 p q _ fun j =>
      congrArg (V c main_v37) (Shape.idx_ext₂ ((win1_0.rect_emb_val t _ (0 : Fin 2)).trans (by rw [e0]; rfl)) ((win1_0.rect_emb_val t _ (1 : Fin 2)).trans (by rw [e0]; exact Nat.zero_add _)))
  · have h0 : (i 0).val < 100000 := idx2_lt0 i
    obtain ⟨t, ht⟩ : ∃ t : Fin cfg1.N, t.val = (i 0).val / 5000 := ⟨⟨(i 0).val / 5000, by show _ < grid1.N; rw [N_1]; omega⟩, rfl⟩
    have e : ((cfg1.win 9).blk t).view.emb (ix2 ⟨(i 0).val % 5000, Nat.mod_lt _ (by decide)⟩ (i 1)) = i :=
      (key t _ _ (by show t.val * 5000 + (i 0).val % 5000 < 100000; omega)).trans
        (Shape.idx_ext₂ (by show t.val * 5000 + (i 0).val % 5000 = (i 0).val; omega) rfl)
    exact ⟨t, flush1_9 t, e ▸ View.emb_mem_set _ _⟩

end Cert.KernelIdeal.Val

end
-- ==== Proof.KIV.MlpValue2.lean ====
import proofs.«410344_j57440892617235_1_alg».proof.Proof.KIF.Mlp2
import proofs.«410344_j57440892617235_1_alg».proof.Proof.KIV.MlpValue0

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem idx2 : ∀ t : Fin grid2.N, win2_0.index t = ![t.val, 0] ∧ win2_9.index t = ![t.val, 0] ∧ win2_1.index t = 0 ∧ win2_2.index t = 0
    ∧ win2_3.index t = 0 ∧ win2_4.index t = 0 ∧ win2_5.index t = 0 ∧ win2_6.index t = 0 ∧ win2_7.index t = 0 ∧ win2_8.index t = 0 := by
  decide +kernel

/-- The three regions' bodies are one text. -/
theorem out2_eq : @out2_9 Ideal _ = @out0_9 Ideal _ := rfl

/-- Each of region 2's eight parameter blocks is its whole array. -/
theorem blk2 (c : Dev nD) (t : Fin cfg2.N) : iblk2 V c 1 t = V c main_v67 ∧ iblk2 V c 2 t = V c main_v82 ∧ iblk2 V c 3 t = V c main_v83
    ∧ iblk2 V c 4 t = V c main_v84 ∧ iblk2 V c 5 t = V c main_v85 ∧ iblk2 V c 6 t = V c main_v86 ∧ iblk2 V c 7 t = V c main_v79
    ∧ iblk2 V c 8 t = V c main_v87 := by
  obtain ⟨-, -, e1, e2, e3, e4, e5, e6, e7, e8⟩ := idx2 t
  exact ⟨read_zero win2_1 t e1 (V c main_v67) id fun _ _ => rfl, read_zero win2_2 t e2 (V c main_v82) id fun _ _ => rfl,
    read_zero win2_3 t e3 (V c main_v83) id fun _ _ => rfl, read_zero win2_4 t e4 (V c main_v84) id fun _ _ => rfl,
    read_zero win2_5 t e5 (V c main_v85) id fun _ _ => rfl, read_zero win2_6 t e6 (V c main_v86) id fun _ _ => rfl,
    read_zero win2_7 t e7 (V c main_v79) id fun _ _ => rfl, read_zero win2_8 t e8 (V c main_v87) id fun _ _ => rfl⟩

/-- Region 2 stores the same block as region 0 through windows of the same index maps over its own ten arrays. -/
theorem final2 (c : Dev nD) : (dat2 V c).arrAt 9 cfg2.N
    = mlpArr (V c main_v65) (V c main_v67) (V c main_v82) (V c main_v83) (V c main_v84) (V c main_v85) (V c main_v86) (V c main_v79) (V c main_v87) := by
  have key (t : Fin cfg2.N) (p : Fin 5000) (q : Fin 128) (h : t.val * 5000 + p.val < 100000) :
      ((cfg2.win 9).blk t).view.emb (ix2 p q) = ix2 ⟨t.val * 5000 + p.val, h⟩ q :=
    Shape.idx_ext₂ ((win2_9.rect_emb_val t _ (0 : Fin 2)).trans (by rw [(idx2 t).2.1]; rfl)) ((win2_9.rect_emb_val t _ (1 : Fin 2)).trans (by rw [(idx2 t).2.1]; exact Nat.zero_add _))
  refine (dat2 V c).arrAt_eq_of_cover 9 _ (fun t _ => ?_) fun i => ?_
  · obtain ⟨h1, h2, h3, h4, h5, h6, h7, h8⟩ := blk2 V c t
    have e0 := (idx2 t).1
    have hN : t.val < 20 := lt_of_lt_of_eq t.isLt N_2
    show (cfg2.win 9).cut (grid2.coords t) ((dat2 V c).after 9 t) = _
    rw [after2_9, out2_eq]
    funext y
    obtain ⟨p, q, rfl⟩ : ∃ (p : Fin 5000) (q : Fin 128), y = ix2 p q := ⟨y 0, y 1, eq_ix2 y⟩
    rw [View.read_apply, key t p q (by omega)]
    exact out_blk h1 h2 h3 h4 h5 h6 h7 h8 p q _ fun j =>
      congrArg (V c main_v65) (Shape.idx_ext₂ ((win2_0.rect_emb_val t _ (0 : Fin 2)).trans (by rw [e0]; rfl)) ((win2_0.rect_emb_val t _ (1 : Fin 2)).trans (by rw [e0]; exact Nat.zero_add _)))
  · have h0 : (i 0).val < 100000 := idx2_lt0 i
    obtain ⟨t, ht⟩ : ∃ t : Fin cfg2.N, t.val = (i 0).val / 5000 := ⟨⟨(i 0).val / 5000, by show _ < grid2.N; rw [N_2]; omega⟩, rfl⟩
    have e : ((cfg2.win 9).blk t).view.emb (ix2 ⟨(i 0).val % 5000, Nat.mod_lt _ (by decide)⟩ (i 1)) = i :=
      (key t _ _ (by show t.val * 5000 + (i 0).val % 5000 < 100000; omega)).trans
        (Shape.idx_ext₂ (by show t.val * 5000 + (i 0).val % 5000 = (i 0).val; omega) rfl)
    exact ⟨t, flush2_9 t, e ▸ View.emb_mem_set _ _⟩

end Cert.KernelIdeal.Val

end
-- ==== Proof.KIV.HostL0.lean ====
import proofs.«410344_j57440892617235_1_alg».proof.Proof.Gen.KernelIdeal.Regions
import proofs.«410344_j57440892617235_1_alg».proof.Proof.KIV.HostTake
import proofs.«410344_j57440892617235_1_alg».proof.Proof.RefTerms
import Idealize.ShloMosaic.Lib.StableHlo.Run

noncomputable section

namespace Cert.KernelIdeal.Val

open Cert.KernelIdeal Cert.KernelIdeal.Gen
open Idealize.ShloMosaic Idealize.ShloMosaic.TcCoe Idealize.SL.Sem Idealize.ShloMosaic.StableHlo
open Cert.RefTerms (rowW0 rowV0)

variable {F : FTy → Type} [FloatOps F]
variable (U : Valuation τ sig (Elt F))

/-- Layer 0's taken rows are the gather at the wrapped sources: the stretch masks the gather, and the mask is all ones. -/
theorem take0 (hsrc : ∀ e, -100000 ≤ ((U main_v1 : IVec S1600000 32) e).toInt
      ∧ ((U main_v1 : IVec S1600000 32) e).toInt < 100000) :
    (StableHlo.after hostOps0_1 U main_v5 : FVec F S1600000x128 .f32)
    = Host.gather gather_S100000x128_S1600000x1_S1600000x128_1_0_n_n_0_1_1128 (U main_arg0)
        (idxCol (U main_v1)) := by
  refine Eq.trans ?_ (select_takeMask _ hsrc _ (broadcastInDim S1600000x128 ![] bcast_S_S1600000x128 (constant S_ .f32 0x7FC00000#32)))
  unfold takeMask idxCol wrapIdx
  after_results_simp
  simp only [ofBuf_toBuf]
  simp only [TRef.toBuf, TRef.ofBuf]
  erw [cast_eq, cast_eq, cast_eq]

/-- The row array: the layer's input plus, at each destination, the sum of the rows taken for it. -/
theorem win0_0 : StableHlo.after hostOps0_2 U main_v9
    = addf (U main_arg0)
        (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 (U main_v3))
          (U main_v5)) := by
  after_results

/-! The eight parameter arrays are layer 0's rows of the stacked arguments, the vectors as rows. -/

theorem win0_1 : StableHlo.after hostOps0_2 U main_v11
    = rowW0 (U main_arg3) := by
  after_results
  rfl

theorem win0_2 : StableHlo.after hostOps0_2 U main_v26
    = shapeCast S1x128 (rowV0 (U main_arg4)) shapeCasts_S128_S1x128 := by
  after_results
  rfl

theorem win0_3 : StableHlo.after hostOps0_2 U main_v27
    = shapeCast S1x128 (rowV0 (U main_arg5)) shapeCasts_S128_S1x128 := by
  after_results
  rfl

theorem win0_4 : StableHlo.after hostOps0_2 U main_v28
    = shapeCast S1x128 (rowV0 (U main_arg6)) shapeCasts_S128_S1x128 := by
  after_results
  rfl

theorem win0_5 : StableHlo.after hostOps0_2 U main_v29
    = shapeCast S1x128 (rowV0 (U main_arg7)) shapeCasts_S128_S1x128 := by
  after_results
  rfl

theorem win0_6 : StableHlo.after hostOps0_2 U main_v30
    = shapeCast S1x128 (rowV0 (U main_arg8)) shapeCasts_S128_S1x128 := by
  after_results
  rfl

theorem win0_7 : StableHlo.after hostOps0_2 U main_v23
    = rowW0 (U main_arg9) := by
  after_results
  rfl

theorem win0_8 : StableHlo.after hostOps0_2 U main_v31
    = shapeCast S1x128 (rowV0 (U main_arg10)) shapeCasts_S128_S1x128 := by
  after_results
  rfl

end Cert.KernelIdeal.Val
-- ==== Proof.KIV.HostL1.lean ====
import proofs.«410344_j57440892617235_1_alg».proof.Proof.Gen.KernelIdeal.Regions
import proofs.«410344_j57440892617235_1_alg».proof.Proof.KIV.HostTake
import proofs.«410344_j57440892617235_1_alg».proof.Proof.RefTerms
import Idealize.ShloMosaic.Lib.StableHlo.Run

noncomputable section

namespace Cert.KernelIdeal.Val

open Cert.KernelIdeal Cert.KernelIdeal.Gen
open Idealize.ShloMosaic Idealize.ShloMosaic.TcCoe Idealize.SL.Sem Idealize.ShloMosaic.StableHlo
open Cert.RefTerms (rowW1 rowV1)

variable {F : FTy → Type} [FloatOps F]
variable (U : Valuation τ sig (Elt F))

/-- Layer 1's taken rows are the gather, from region 0's output, at the wrapped sources. -/
theorem take1 (hsrc : ∀ e, -100000 ≤ ((U main_v1 : IVec S1600000 32) e).toInt
      ∧ ((U main_v1 : IVec S1600000 32) e).toInt < 100000) :
    (StableHlo.after hostOps1 U main_v33 : FVec F S1600000x128 .f32)
    = Host.gather gather_S100000x128_S1600000x1_S1600000x128_1_0_n_n_0_1_1128 (U main_v32)
        (idxCol (U main_v1)) := by
  refine Eq.trans ?_ (select_takeMask _ hsrc _ (broadcastInDim S1600000x128 ![] bcast_S_S1600000x128 (constant S_ .f32 0x7FC00000#32)))
  unfold takeMask idxCol wrapIdx
  after_results_simp
  simp only [ofBuf_toBuf]
  simp only [TRef.toBuf, TRef.ofBuf]
  erw [cast_eq, cast_eq, cast_eq]

theorem win1_0 : StableHlo.after hostOps1_1 U main_v37
    = addf (U main_v32)
        (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 (U main_v3))
          (U main_v33)) := by
  after_results

theorem win1_1 : StableHlo.after hostOps1_1 U main_v39
    = rowW1 (U main_arg3) := by
  after_results
  rfl

theorem win1_2 : StableHlo.after hostOps1_1 U main_v54
    = shapeCast S1x128 (rowV1 (U main_arg4)) shapeCasts_S128_S1x128 := by
  after_results
  rfl

theorem win1_3 : StableHlo.after hostOps1_1 U main_v55
    = shapeCast S1x128 (rowV1 (U main_arg5)) shapeCasts_S128_S1x128 := by
  after_results
  rfl

theorem win1_4 : StableHlo.after hostOps1_1 U main_v56
    = shapeCast S1x128 (rowV1 (U main_arg6)) shapeCasts_S128_S1x128 := by
  after_results
  rfl

theorem win1_5 : StableHlo.after hostOps1_1 U main_v57
    = shapeCast S1x128 (rowV1 (U main_arg7)) shapeCasts_S128_S1x128 := by
  after_results
  rfl

theorem win1_6 : StableHlo.after hostOps1_1 U main_v58
    = shapeCast S1x128 (rowV1 (U main_arg8)) shapeCasts_S128_S1x128 := by
  after_results
  rfl

theorem win1_7 : StableHlo.after hostOps1_1 U main_v51
    = rowW1 (U main_arg9) := by
  after_results
  rfl

theorem win1_8 : StableHlo.after hostOps1_1 U main_v59
    = shapeCast S1x128 (rowV1 (U main_arg10)) shapeCasts_S128_S1x128 := by
  after_results
  rfl

end Cert.KernelIdeal.Val
-- ==== Proof.KIV.HostL2.lean ====
import proofs.«410344_j57440892617235_1_alg».proof.Proof.Gen.KernelIdeal.Regions
import proofs.«410344_j57440892617235_1_alg».proof.Proof.KIV.HostTake
import proofs.«410344_j57440892617235_1_alg».proof.Proof.RefTerms
import Idealize.ShloMosaic.Lib.StableHlo.Run

noncomputable section

namespace Cert.KernelIdeal.Val

open Cert.KernelIdeal Cert.KernelIdeal.Gen
open Idealize.ShloMosaic Idealize.ShloMosaic.TcCoe Idealize.SL.Sem Idealize.ShloMosaic.StableHlo
open Cert.RefTerms (rowW2 rowV2)

variable {F : FTy → Type} [FloatOps F]
variable (U : Valuation τ sig (Elt F))

/-- Layer 2's taken rows are the gather, from region 1's output, at the wrapped sources. -/
theorem take2 (hsrc : ∀ e, -100000 ≤ ((U main_v1 : IVec S1600000 32) e).toInt
      ∧ ((U main_v1 : IVec S1600000 32) e).toInt < 100000) :
    (StableHlo.after hostOps2 U main_v61 : FVec F S1600000x128 .f32)
    = Host.gather gather_S100000x128_S1600000x1_S1600000x128_1_0_n_n_0_1_1128 (U main_v60)
        (idxCol (U main_v1)) := by
  refine Eq.trans ?_ (select_takeMask _ hsrc _ (broadcastInDim S1600000x128 ![] bcast_S_S1600000x128 (constant S_ .f32 0x7FC00000#32)))
  unfold takeMask idxCol wrapIdx
  after_results_simp
  simp only [ofBuf_toBuf]
  simp only [TRef.toBuf, TRef.ofBuf]
  erw [cast_eq, cast_eq, cast_eq]

theorem win2_0 : StableHlo.after hostOps2_1 U main_v65
    = addf (U main_v60)
        (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 (U main_v3))
          (U main_v61)) := by
  after_results

theorem win2_1 : StableHlo.after hostOps2_1 U main_v67
    = rowW2 (U main_arg3) := by
  after_results
  rfl

theorem win2_2 : StableHlo.after hostOps2_1 U main_v82
    = shapeCast S1x128 (rowV2 (U main_arg4)) shapeCasts_S128_S1x128 := by
  after_results
  rfl

theorem win2_3 : StableHlo.after hostOps2_1 U main_v83
    = shapeCast S1x128 (rowV2 (U main_arg5)) shapeCasts_S128_S1x128 := by
  after_results
  rfl

theorem win2_4 : StableHlo.after hostOps2_1 U main_v84
    = shapeCast S1x128 (rowV2 (U main_arg6)) shapeCasts_S128_S1x128 := by
  after_results
  rfl

theorem win2_5 : StableHlo.after hostOps2_1 U main_v85
    = shapeCast S1x128 (rowV2 (U main_arg7)) shapeCasts_S128_S1x128 := by
  after_results
  rfl

theorem win2_6 : StableHlo.after hostOps2_1 U main_v86
    = shapeCast S1x128 (rowV2 (U main_arg8)) shapeCasts_S128_S1x128 := by
  after_results
  rfl

theorem win2_7 : StableHlo.after hostOps2_1 U main_v79
    = rowW2 (U main_arg9) := by
  after_results
  rfl

theorem win2_8 : StableHlo.after hostOps2_1 U main_v87
    = shapeCast S1x128 (rowV2 (U main_arg10)) shapeCasts_S128_S1x128 := by
  after_results
  rfl

end Cert.KernelIdeal.Val
-- ==== Proof.KIV.HostPre.lean ====
import proofs.«410344_j57440892617235_1_alg».proof.Defs
import proofs.«410344_j57440892617235_1_alg».proof.Proof.Gen.Pre_finite_inputs
import proofs.«410344_j57440892617235_1_alg».proof.Proof.KIV.HostTake
import Idealize.ShloMosaic.Lib.ReduceAll

noncomputable section

namespace Cert.KernelIdeal.Val

open Cert.KernelIdeal Cert.KernelIdeal.Gen
open Idealize.ShloMosaic Idealize.ShloMosaic.TcCoe Idealize.SL.Sem

/-- The precondition's last conjunct is a reduce by and, over the sources, of `-100000 ≤ w` and `w < 100000` read signed;
    its one word is 1 only if every word reduced is. -/
theorem pre_src (m : (ℓ : Loc nD τ sig) → Buf (Elt Ideal) ℓ) (h : Cert.Pre_KernelIdeal m) (c : Dev nD) (e : S1600000.Idx) :
    -100000 ≤ (srcRow (m ((c.tc : Thread nD τ).loc main_arg1)) e).toInt
      ∧ (srcRow (m ((c.tc : Thread nD τ).loc main_arg1)) e).toInt < 100000 := by
  have e0 := congrFun (h c) (fun d => d.elim0)
  unfold Cert.Pre_finite_inputs.fn Cert.Pre_finite_inputs.fn_part1 Cert.Pre_finite_inputs.fn_part2
    Cert.Pre_finite_inputs.fn_part3 Cert.Pre_finite_inputs.fn_part4 at e0
  dsimp only at e0
  have e1 := (IntOp.andi_eq_one.1 e0).2
  haveI : Subsingleton Cert.Pre_finite_inputs.S_.Idx := ⟨fun a b => funext fun d => d.elim0⟩
  have e2 := Host.reduce_andi_all _ _ _ _ _ e1 e
  obtain ⟨hge, hlt⟩ := IntOp.andi_eq_one.1 e2
  have c1 : (4294867296#32 : BitVec 32).toInt = -100000 := by decide
  have c2 : (100000#32 : BitVec 32).toInt = 100000 := by decide
  exact ⟨c1 ▸ IntOp.cmpi_sge.1 hge, c2 ▸ IntOp.cmpi_slt.1 hlt⟩

end Cert.KernelIdeal.Val
-- ==== Proof.KIV.BridgeLayers.lean ====
import proofs.«410344_j57440892617235_1_alg».proof.Proof.KIF.RunKeep
import proofs.«410344_j57440892617235_1_alg».proof.Proof.RefTerms
import proofs.«410344_j57440892617235_1_alg».proof.Proof.KIV.MlpRef
import proofs.«410344_j57440892617235_1_alg».proof.Proof.KIV.MlpValue0
import proofs.«410344_j57440892617235_1_alg».proof.Proof.KIV.MlpValue1
import proofs.«410344_j57440892617235_1_alg».proof.Proof.KIV.MlpValue2
import proofs.«410344_j57440892617235_1_alg».proof.Proof.KIV.Host
import proofs.«410344_j57440892617235_1_alg».proof.Proof.KIV.HostL0
import proofs.«410344_j57440892617235_1_alg».proof.Proof.KIV.HostL1
import proofs.«410344_j57440892617235_1_alg».proof.Proof.KIV.HostL2
import proofs.«410344_j57440892617235_1_alg».proof.Proof.KIV.HostPre

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

/-- The kernel program's aggregation, over its own row and index terms, is the reference's. -/
theorem agg_eq (X : FVec Ideal S100000x128 .f32) (ei : IVec S2x1600000 32) :
    addf X (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (dstRow ei))
        (Host.gather gather_S100000x128_S1600000x1_S1600000x128_1_0_n_n_0_1_1128 X (idxCol (srcRow ei))))
      = Cert.RefTerms.refAgg X ei := by
  unfold Cert.RefTerms.refAgg Cert.RefTerms.zerosN Cert.RefTerms.dstRow Cert.RefTerms.srcRow Cert.RefTerms.wrapIdx idxCol wrapIdx dstRow srcRow
  rfl

theorem W1_src (c : Dev nD) : (W1 (F := Ideal) m ρ c (Proc.devRef .tc main_v1) : IVec S1600000 32) = srcRow (m ((c.tc : Thread nD τ).loc main_arg1)) :=
  h0_src (W0 m ρ c)

theorem W1_dst (c : Dev nD) : (W1 (F := Ideal) m ρ c (Proc.devRef .tc main_v3) : IVec S1600000 32) = dstRow (m ((c.tc : Thread nD τ).loc main_arg1)) :=
  h0_dst (W0 m ρ c)

/-- Under the precondition every source word, as the first stretch leaves it, is a row index counted from either end. -/
theorem src_ok (h : Cert.Pre_KernelIdeal m) (c : Dev nD) (e : S1600000.Idx) :
    -100000 ≤ ((W1 (F := Ideal) m ρ c (Proc.devRef .tc main_v1) : IVec S1600000 32) e).toInt
      ∧ ((W1 (F := Ideal) m ρ c (Proc.devRef .tc main_v1) : IVec S1600000 32) e).toInt < 100000 := by
  rw [W1_src m ρ c]; exact pre_src m h c e

/-- Layer 0: region 0 enters on the aggregation of the launch rows and layer 0's rows of the parameter stacks, which nothing
    has written since launch; its output is the network of them, which is the reference's, entry by entry. -/
theorem L0 (h : Cert.Pre_KernelIdeal m) (c : Dev nD) :
    W4 (F := Ideal) m ρ c (Proc.devRef .tc main_v32)
      = Cert.RefTerms.refLayer0 (F := Ideal) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [W4_main_v32, final0]
  simp only [Fr.V3, Fr.W3]
  rw [win0_0, win0_1, win0_2, win0_3, win0_4, win0_5, win0_6, win0_7, win0_8,
    W2_untouched m ρ c main_arg0 untouched_main_arg0, W2_untouched m ρ c main_arg3 untouched_main_arg3,
    W2_untouched m ρ c main_arg4 untouched_main_arg4, W2_untouched m ρ c main_arg5 untouched_main_arg5,
    W2_untouched m ρ c main_arg6 untouched_main_arg6, W2_untouched m ρ c main_arg7 untouched_main_arg7,
    W2_untouched m ρ c main_arg8 untouched_main_arg8, W2_untouched m ρ c main_arg9 untouched_main_arg9,
    W2_untouched m ρ c main_arg10 untouched_main_arg10, W2_from1 m ρ c main_v3 kept_main_v3, W1_dst m ρ c,
    show W2 m ρ c main_v5 = _ from take0 (W1 m ρ c) (src_ok m ρ h c),
    W1_untouched m ρ c main_arg0 untouched_main_arg0, W1_src m ρ c, agg_eq]
  exact (refMlp_eq _ _ _ _ _ _ _ _ _ _).symm

/-- Layer 1: the same of region 0's output, which with the edge rows is kept up to region 1's entry. -/
theorem L1 (h : Cert.Pre_KernelIdeal m) (c : Dev nD) :
    W7 (F := Ideal) m ρ c (Proc.devRef .tc main_v60)
      = Cert.RefTerms.refLayer1 (F := Ideal) (W4 (F := Ideal) m ρ c (Proc.devRef .tc main_v32)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [W7_main_v60, final1]
  simp only [Fr.V6, Fr.W6]
  rw [win1_0, win1_1, win1_2, win1_3, win1_4, win1_5, win1_6, win1_7, win1_8,
    W5_main_v32 m ρ c, W5_untouched m ρ c main_arg3 untouched_main_arg3,
    W5_untouched m ρ c main_arg4 untouched_main_arg4, W5_untouched m ρ c main_arg5 untouched_main_arg5,
    W5_untouched m ρ c main_arg6 untouched_main_arg6, W5_untouched m ρ c main_arg7 untouched_main_arg7,
    W5_untouched m ρ c main_arg8 untouched_main_arg8, W5_untouched m ρ c main_arg9 untouched_main_arg9,
    W5_untouched m ρ c main_arg10 untouched_main_arg10, W5_from1 m ρ c main_v3 kept_main_v3, W1_dst m ρ c,
    show W5 m ρ c main_v33 = _ from
      take1 (W4 m ρ c) (by rw [W4_from1 m ρ c main_v1 kept_main_v1]; exact src_ok m ρ h c),
    W4_from1 m ρ c main_v1 kept_main_v1, W1_src m ρ c, agg_eq]
  exact (refMlp_eq _ _ _ _ _ _ _ _ _ _).symm

/-- Layer 2: the same of region 1's output. -/
theorem L2 (h : Cert.Pre_KernelIdeal m) (c : Dev nD) :
    W10 (F := Ideal) m ρ c (Proc.devRef .tc main_v88)
      = Cert.RefTerms.refLayer2 (F := Ideal) (W7 (F := Ideal) m ρ c (Proc.devRef .tc main_v60)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [W10_main_v88, final2]
  simp only [Fr.V9, Fr.W9]
  rw [win2_0, win2_1, win2_2, win2_3, win2_4, win2_5, win2_6, win2_7, win2_8,
    W8_main_v60 m ρ c, W8_untouched m ρ c main_arg3 untouched_main_arg3,
    W8_untouched m ρ c main_arg4 untouched_main_arg4, W8_untouched m ρ c main_arg5 untouched_main_arg5,
    W8_untouched m ρ c main_arg6 untouched_main_arg6, W8_untouched m ρ c main_arg7 untouched_main_arg7,
    W8_untouched m ρ c main_arg8 untouched_main_arg8, W8_untouched m ρ c main_arg9 untouched_main_arg9,
    W8_untouched m ρ c main_arg10 untouched_main_arg10, W8_from1 m ρ c main_v3 kept_main_v3, W1_dst m ρ c,
    show W8 m ρ c main_v61 = _ from
      take2 (W7 m ρ c) (by rw [W7_from1 m ρ c main_v1 kept_main_v1]; exact src_ok m ρ h c),
    W7_from1 m ρ c main_v1 kept_main_v1, W1_src m ρ c, agg_eq]
  exact (refMlp_eq _ _ _ _ _ _ _ _ _ _).symm

end Cert.KernelIdeal.Val

end
-- ==== Proof.KIV.BridgeHead.lean ====
import proofs.«410344_j57440892617235_1_alg».proof.Defs
import proofs.«410344_j57440892617235_1_alg».proof.Proof.Gen.Pre_finite_inputs
import proofs.«410344_j57440892617235_1_alg».proof.Proof.KIF.RunKeep
import proofs.«410344_j57440892617235_1_alg».proof.Proof.RefTerms
import proofs.«410344_j57440892617235_1_alg».proof.Proof.KIV.Host
import proofs.«410344_j57440892617235_1_alg».proof.Proof.KIV.PoolValue
import proofs.«410344_j57440892617235_1_alg».proof.Proof.KIV.BridgeLayers
import Idealize.ShloMosaic.Lib.ValueIdx
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- A vector written as a column has at `(i, 0)` its entry `i`, -/
theorem col_of {A : IVec S100000x1 32} {x : IVec S100000 32} (hA : A = shapeCast S100000x1 x shapeCasts_S100000_S100000x1) (i : Fin 100000) :
    A (ix2 i 0) = x (ix1 i) :=
  hA ▸ shapeCast_apply x _ (ix2 i 0) (ix1 i) (by
    rw [Shape.rowMajor_val_one, Shape.rowMajor_val_two]
    show i.val = i.val * 1 + 0
    omega)

/-- and one written as a row has at `(0, k)` its entry `k`. -/
theorem row_of {A : FVec Ideal S1x128 .f32} {x y : FVec Ideal S128 .f32} (hA : A = shapeCast S1x128 x shapeCasts_S128_S1x128) (hx : x = y)
    (k : Fin 128) : A (ix2 0 k) = y (ix1 k) :=
  hx ▸ hA ▸ shapeCast_apply x _ (ix2 0 k) (ix1 k) (by
    rw [Shape.rowMajor_val_one, Shape.rowMajor_val_two]
    show k.val = 0 * 128 + k.val
    omega)

/-- Region 3 enters on region 2's output, the batch column the first stretch made, and the head's parameters as launched, its two
    bias vectors as rows; so its output is the reference's pooled head of the third layer, and the three layers are the reference's. -/
theorem result_eq (h : Cert.Pre_KernelIdeal m) (c : Dev nD) :
    W12 (F := Ideal) m ρ c (Proc.devRef .tc main_v91)
      = Cert.RefTerms.refAll (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have hv := pool_value (V11 m ρ) c (m ((c.tc : Thread nD τ).loc main_arg2)) (m ((c.tc : Thread nD τ).loc main_arg12)) (m ((c.tc : Thread nD τ).loc main_arg14))
    (col_of ((W11_from1 m ρ c main_v4 kept_main_v4).trans (h0_batch (W0 m ρ c))))
    (row_of (h3_b1 (W10 m ρ c)) (W10_untouched m ρ c main_arg12 untouched_main_arg12))
    (row_of (h3_b2 (W10 m ρ c)) (W10_untouched m ρ c main_arg14 untouched_main_arg14))
  rw [show V11 m ρ c (Pipeline.arrRef spec3 0) = _ from W11_main_v88 m ρ c,
    show V11 m ρ c (Pipeline.arrRef spec3 2) = _ from W11_untouched m ρ c main_arg11 untouched_main_arg11,
    show V11 m ρ c (Pipeline.arrRef spec3 4) = _ from W11_untouched m ρ c main_arg13 untouched_main_arg13] at hv
  unfold Cert.RefTerms.refAll
  rw [← L0 m ρ h c, ← L1 m ρ h c, ← L2 m ρ h c]
  exact (W12_main_v91 m ρ c).trans hv

end Cert.KernelIdeal.Val

end
-- ==== Proof.Claims.lean ====
import proofs.«410344_j57440892617235_1_alg».proof.Defs
import proofs.«410344_j57440892617235_1_alg».proof.Proof.Gen.Kernel
import proofs.«410344_j57440892617235_1_alg».proof.Proof.Gen.KernelIdeal
import proofs.«410344_j57440892617235_1_alg».proof.Proof.Gen.ReferenceIdeal
import proofs.«410344_j57440892617235_1_alg».proof.Proof.Gen.Pre_finite_inputs
import proofs.«410344_j57440892617235_1_alg».proof.Proof.KF.Run
import proofs.«410344_j57440892617235_1_alg».proof.Proof.KIF.Run
import proofs.«410344_j57440892617235_1_alg».proof.Proof.RefBridge
import proofs.«410344_j57440892617235_1_alg».proof.Proof.KIV.BridgeHead

noncomputable section

open Idealize.ShloMosaic Idealize.ShloMosaic.TcCoe Idealize.SL.Sem

namespace Cert.Proof.Claims

theorem frame_p : Cert.frame_Kernel := fun m ρ _ => Cert.Kernel.Fr.frame m ρ
theorem frame_pi : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal in
def refAt (m : (ℓ : Loc nD τ sig) → Buf (Elt Ideal) ℓ) (c : Dev nD) :
    Buf (Elt Ideal) ((c.tc : Thread nD τ).loc main_v91) :=
  Cert.RefTerms.refAll (F := Ideal)
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))

def ResultEq : Prop :=
  ∀ (m : (ℓ : Loc Cert.KernelIdeal.nD Cert.KernelIdeal.τ Cert.KernelIdeal.sig) → Buf (Elt Ideal) ℓ) (ρ : Dev Cert.KernelIdeal.nD → PrngReg),
    Cert.Pre_KernelIdeal m → ∀ c : Dev Cert.KernelIdeal.nD,
      Cert.KernelIdeal.Fr.W12 m ρ c (Proc.devRef .tc Cert.KernelIdeal.main_v91) = refAt m c

theorem algebraic_of (hres : ResultEq) : Cert.algebraic_KernelIdeal_ReferenceIdeal := by
  intro m ρ m' ρ' hpre hagree
  refine ⟨refAt m, ?_, ?_⟩
  · exact Cert.KernelIdeal.Fr.run_post (F := Ideal) m ρ fun s h c =>
      ⟨(h c _ (Cert.KernelIdeal.Fr.mem_uc Cert.KernelIdeal.main_v91 (by decide))).trans (hres m ρ hpre c),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide),
       Cert.KernelIdeal.Fr.arg_kept m ρ h c _ (by decide)⟩
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.RefTerms.res_eq, e0, e1, e2, e3, e4, e5, e6, e7, e8, e9, e10, e11, e12, e13, e14]
    rfl

theorem algebraic : Cert.algebraic_KernelIdeal_ReferenceIdeal :=
  algebraic_of fun m ρ h c => Cert.KernelIdeal.Val.result_eq m ρ h c

end Cert.Proof.Claims

end
-- ==== Proof.lean ====
/- Three layers (a neighbour sum, then a two-layer perceptron row by row), a per-graph sum and a two-layer head: kernel and
   reference apply the same functions to the same sums, index by index; no item of either kernel program writes an argument. -/
import proofs.«410344_j57440892617235_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
